-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x4096x1024 : Shape := ⟨4, ![4, 1, 4096, 1024]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S4x1x4096x1024 : S_.BroadcastsInDim S4x1x4096x1024 (![] : Fin 0 → Fin S4x1x4096x1024.rank)
  reducesTo_S4x1x4096x1024_S_d0_1_2_3 : S4x1x4096x1024.ReducesTo [0, 1, 2, 3] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x512 .f32) (main_arg8 : FVec F S1024 .f32) (main_arg9 : FVec F S1024 .f32) (main_arg10 : FVec F S1024 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S512 .f32) (main_arg5 : FVec F S512x1024 .f32) (main_arg6 : FVec F S512 .f32) (main_arg7 : FVec F S1024x512 .f32) (main_arg8 : FVec F S1024 .f32) (main_arg9 : FVec F S1024 .f32) (main_arg10 : FVec F S1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x1x4096x1024 .f32) (main_arg1 : FVec F S512x1024 .f32) (main_arg2 : FVec F S512 .f32) (main_arg3 : FVec F S512x1024 .f32) (main_arg4 : FVec F S512 .f32) (main_arg5 : FVec F S512x1024 .f32) (main_arg6 : FVec F S512 .f32) (main_arg7 : FVec F S1024x512 .f32) (main_arg8 : FVec F S1024 .f32) (main_arg9 : FVec F S1024 .f32) (main_arg10 : FVec F S1024 .f32) : IVec S_ 1 :=
  let main_v0 : FVec F S4x1x4096x1024 .f32 := Host.absf main_arg0
  let main_cst : FVec F S_ .f32 := constant S_ .f32 0x7F800000#32
  let main_v1 : FVec F S4x1x4096x1024 .f32 := broadcastInDim S4x1x4096x1024 ![] bcast_S_S4x1x4096x1024 main_cst
  let main_v2 : IVec S4x1x4096x1024 1 := cmpf .olt main_v0 main_v1
  let main_c : IVec S_ 1 := constantI S_ 1 1#1
  let main_v3 : IVec S_ 1 := (fun x v => Host.reduce IntOp.andi x v reducesTo_S4x1x4096x1024_S_d0_1_2_3 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_v13 main_v16
-- ==== Kernel.lean ====
abbrev S4x1x4096x1024 : Shape := ⟨4, ![4, 1, 4096, 1024]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S4x4096x1024 : Shape := ⟨3, ![4, 4096, 1024]⟩
abbrev S4x512x512 : Shape := ⟨3, ![4, 512, 512]⟩
abbrev S1x512x1024 : Shape := ⟨3, ![1, 512, 1024]⟩
abbrev S1x512x512 : Shape := ⟨3, ![1, 512, 512]⟩
abbrev S512x512 : Shape := ⟨2, ![512, 512]⟩
abbrev S1x512 : Shape := ⟨2, ![1, 512]⟩
abbrev S4x1x1024 : Shape := ⟨3, ![4, 1, 1024]⟩
abbrev S1x1x1024 : Shape := ⟨3, ![1, 1, 1024]⟩
abbrev S1x1024 : Shape := ⟨2, ![1, 1024]⟩
abbrev S4x1024 : Shape := ⟨2, ![4, 1024]⟩
abbrev S_ : Shape := ⟨0, ![]⟩

abbrev nBuf : Space → Nat
  | .hbm => 36
  | .vmem => 35
  | .smem => 0
  | _ => 0

abbrev bufTy : (tb : Table) → Fin (tcTables nBuf tb) → BufTy
  | .hbm, ⟨0, _⟩ => ⟨S4x1x4096x1024, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S1024x512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x4096x1024, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S512x1024, .f32⟩
  | .hbm, ⟨16, _⟩ => ⟨S4x512x512, .f32⟩
  | .hbm, ⟨17, _⟩ => ⟨S4x4096x1024, .bf16⟩
  | .hbm, ⟨18, _⟩ => ⟨S4x1x1024, .f32⟩
  | .hbm, ⟨19, _⟩ => ⟨S4x1x1024, .f32⟩
  | .hbm, ⟨20, _⟩ => ⟨S4x1024, .f32⟩
  | .hbm, ⟨21, _⟩ => ⟨S_, .f32⟩
  | .hbm, ⟨22, _⟩ => ⟨S1024, .f32⟩
  | .hbm, ⟨23, _⟩ => ⟨S4x1024, .f32⟩
  | .hbm, ⟨24, _⟩ => ⟨S_, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S4x4096x1024, .f32⟩
  | .hbm, ⟨35, _⟩ => ⟨S4x1x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x512, .f32⟩
  | .local _ .vmem, ⟨3, _⟩ => ⟨S512, .f32⟩
  | .local _ .vmem, ⟨4, _⟩ => ⟨S1024x512, .f32⟩
  | .local _ .vmem, ⟨5, _⟩ => ⟨S512, .f32⟩
  | .local _ .vmem, ⟨6, _⟩ => ⟨S1x512x512, .f32⟩
  | .local _ .vmem, ⟨7, _⟩ => ⟨S1x512x512, .f32⟩
  | .local _ .vmem, ⟨8, _⟩ => ⟨S512x512, .f32⟩
  | .local _ .vmem, ⟨9, _⟩ => ⟨S1x512x1024, .f32⟩
  | .local _ .vmem, ⟨10, _⟩ => ⟨S1x512x1024, .f32⟩
  | .local _ .vmem, ⟨11, _⟩ => ⟨S1024x512, .f32⟩
  | .local _ .vmem, ⟨12, _⟩ => ⟨S512, .f32⟩
  | .local _ .vmem, ⟨13, _⟩ => ⟨S1x512x512, .f32⟩
  | .local _ .vmem, ⟨14, _⟩ => ⟨S1x512x512, .f32⟩
  | .local _ .vmem, ⟨15, _⟩ => ⟨S512x1024, .f32⟩
  | .local _ .vmem, ⟨16, _⟩ => ⟨S1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S1x1024, .f32⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .f32⟩
  | .local _ .vmem, ⟨28, _⟩ => ⟨S1x512x1024, .f32⟩
  | .local _ .vmem, ⟨29, _⟩ => ⟨S1024, .f32⟩
  | .local _ .vmem, ⟨30, _⟩ => ⟨S1024, .f32⟩
  | .local _ .vmem, ⟨31, _⟩ => ⟨S1024, .f32⟩
  | .local _ .vmem, ⟨32, _⟩ => ⟨S1024, .f32⟩
  | .local _ .vmem, ⟨33, _⟩ => ⟨S1x512x1024, .f32⟩
  | .local _ .vmem, ⟨34, _⟩ => ⟨S1x512x1024, .f32⟩
  | _, _ => ⟨S4x1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc1_scratch1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_15 : BitVec 32 := 0#32
  let v32 : BitVec 1 := Scalar.cmpi .ne v31 c0_i32_15
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_27 : BitVec 32 := 0#32
  let v49 : BitVec 1 := Scalar.cmpi .ne v48 c0_i32_27
  v49

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S512x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  shapeCasts_S4x1x4096x1024_S4x4096x1024 : S4x1x4096x1024.ShapeCasts S4x4096x1024
  transposes_S512x1024_S1024x512_1_0 : S512x1024.Transposes [1, 0] S1024x512
  transposes_S1024x512_S512x1024_1_0 : S1024x512.Transposes [1, 0] S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  reduces_S512x1024_S1024 : S512x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S4x1x1024_S4x1024 : S4x1x1024.ShapeCasts S4x1024
  reducesTo_S4x1024_S1024_d0 : S4x1024.ReducesTo [0] S1024
  h_S_ : 0 < S_.numel
  bcast_S_S1024 : S_.BroadcastsInDim S1024 (![] : Fin 0 → Fin S1024.rank)
  shapeCasts_S1024_S1024 : S1024.ShapeCasts S1024
  shapeCasts_S4x4096x1024_S4x1x4096x1024 : S4x4096x1024.ShapeCasts S4x1x4096x1024
  dot_S512x1024_S1024x512_S512x512_1_0_0_1_n_n_wf : DotDims.WF S512x1024 S1024x512 S512x512 [1] [0] [0] [1] [] []
  dot_S512x512_S512x512_S512x512_0_0_1_1_n_n_wf : DotDims.WF S512x512 S512x512 S512x512 [0] [0] [1] [1] [] []
  dot_S512x512_S512x512_S512x512_1_0_0_1_n_n_wf : DotDims.WF S512x512 S512x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S4x512x512.size a
  hwx0_5 : ∀ i : grid0.Coords, EltTy.bits .f32 = 32 ∨ (Rect.block (s := S4x512x512) S1x512x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S4x512x512.size a
  hwx1_3 : ∀ i : grid1.Coords, EltTy.bits .f32 = 32 ∨ (Rect.block (s := S4x512x512) S1x512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S512x1024.size a
  hwx1_4 : ∀ i : grid1.Coords, EltTy.bits .f32 = 32 ∨ (Rect.block (s := S512x1024) S512x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S4x4096x1024.size a
  hwx1_6 : ∀ i : grid1.Coords, EltTy.bits .bf16 = 32 ∨ (Rect.block (s := S4x4096x1024) S1x512x1024.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x1024.size a ≤ S4x1x1024.size a
  hwx1_7 : ∀ i : grid1.Coords, EltTy.bits .f32 = 32 ∨ (Rect.block (s := S4x1x1024) S1x1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x1024.size a ≤ S4x1x1024.size a
  hwx1_8 : ∀ i : grid1.Coords, EltTy.bits .f32 = 32 ∨ (Rect.block (s := S4x1x1024) S1x1x1024.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x4096x1024.size a
  hwx2_0 : ∀ i : grid2.Coords, EltTy.bits .bf16 = 32 ∨ (Rect.block (s := S4x4096x1024) S1x512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x1024.size a ≤ S4x4096x1024.size a
  hwx2_1 : ∀ i : grid2.Coords, EltTy.bits .f32 = 32 ∨ (Rect.block (s := S4x4096x1024) S1x512x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024.size a ≤ S1024.size a
  hwx2_5 : ∀ i : grid2.Coords, EltTy.bits .f32 = 32 ∨ (Rect.block (s := S1024) S1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x1024.size a ≤ S4x4096x1024.size a
  hwx2_6 : ∀ i : grid2.Coords, EltTy.bits .f32 = 32 ∨ (Rect.block (s := S4x4096x1024) S1x512x1024.size (cc2_transform_6 i) (hinb2_6 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6_0) S1x512x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6_1) S1x1x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v6_2) S1x1x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v6_0) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S1x512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x1x4096x1024 : Shape := ⟨4, ![4, 1, 4096, 1024]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S4x1x4096x512 : Shape := ⟨4, ![4, 1, 4096, 512]⟩
abbrev S1x1x1x512 : Shape := ⟨4, ![1, 1, 1, 512]⟩
abbrev S4x1x4096x4096 : Shape := ⟨4, ![4, 1, 4096, 4096]⟩
abbrev S_ : Shape := ⟨0, ![]⟩
abbrev S1x1x1x1024 : Shape := ⟨4, ![1, 1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x1x4096x1024, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S1024x512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x1x4096x512, .f32⟩
  | .hbm, ⟨12, _⟩ => ⟨S1x1x1x512, .f32⟩
  | .hbm, ⟨13, _⟩ => ⟨S4x1x4096x512, .f32⟩
  | .hbm, ⟨14, _⟩ => ⟨S4x1x4096x512, .f32⟩
  | .hbm, ⟨15, _⟩ => ⟨S4x1x4096x512, .f32⟩
  | .hbm, ⟨16, _⟩ => ⟨S1x1x1x512, .f32⟩
  | .hbm, ⟨17, _⟩ => ⟨S4x1x4096x512, .f32⟩
  | .hbm, ⟨18, _⟩ => ⟨S4x1x4096x512, .f32⟩
  | .hbm, ⟨19, _⟩ => ⟨S4x1x4096x512, .f32⟩
  | .hbm, ⟨20, _⟩ => ⟨S1x1x1x512, .f32⟩
  | .hbm, ⟨21, _⟩ => ⟨S4x1x4096x512, .f32⟩
  | .hbm, ⟨22, _⟩ => ⟨S4x1x4096x512, .f32⟩
  | .hbm, ⟨23, _⟩ => ⟨S4x1x4096x4096, .f32⟩
  | .hbm, ⟨24, _⟩ => ⟨S_, .f32⟩
  | .hbm, ⟨25, _⟩ => ⟨S4x1x4096x4096, .f32⟩
  | .hbm, ⟨26, _⟩ => ⟨S4x1x4096x4096, .f32⟩
  | .hbm, ⟨27, _⟩ => ⟨S4x1x4096x512, .f32⟩
  | .hbm, ⟨28, _⟩ => ⟨S4x1x4096x1024, .f32⟩
  | .hbm, ⟨29, _⟩ => ⟨S1x1x1x1024, .f32⟩
  | .hbm, ⟨30, _⟩ => ⟨S4x1x4096x1024, .f32⟩
  | .hbm, ⟨31, _⟩ => ⟨S4x1x4096x1024, .f32⟩
  | .hbm, ⟨32, _⟩ => ⟨S_, .f32⟩
  | .hbm, ⟨33, _⟩ => ⟨S1024, .f32⟩
  | .hbm, ⟨34, _⟩ => ⟨S1x1x1x1024, .f32⟩
  | .hbm, ⟨35, _⟩ => ⟨S_, .f32⟩
  | .hbm, ⟨36, _⟩ => ⟨S1x1x1x1024, .f32⟩
  | .hbm, ⟨37, _⟩ => ⟨S1x1x1x1024, .f32⟩
  | .hbm, ⟨38, _⟩ => ⟨S_, .i32⟩
  | .hbm, ⟨39, _⟩ => ⟨S_, .f32⟩
  | .hbm, ⟨40, _⟩ => ⟨S1024, .f32⟩
  | .hbm, ⟨41, _⟩ => ⟨S1x1x1x1024, .f32⟩
  | .hbm, ⟨42, _⟩ => ⟨S_, .f32⟩
  | .hbm, ⟨43, _⟩ => ⟨S1x1x1x1024, .f32⟩
  | .hbm, ⟨44, _⟩ => ⟨S1x1x1x1024, .f32⟩
  | .hbm, ⟨45, _⟩ => ⟨S4x1x4096x1024, .f32⟩
  | .hbm, ⟨46, _⟩ => ⟨S4x1x4096x1024, .f32⟩
  | .hbm, ⟨47, _⟩ => ⟨S4x1x4096x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1024, .f32⟩
  | .hbm, ⟨53, _⟩ => ⟨S1x1x1x1024, .f32⟩
  | .hbm, ⟨54, _⟩ => ⟨S1x1x1x1024, .f32⟩
  | .hbm, ⟨55, _⟩ => ⟨S1x1x1x1024, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S1x1x1x1024, .f32⟩
  | .hbm, ⟨61, _⟩ => ⟨S1x1x1x1024, .f32⟩
  | .hbm, ⟨62, _⟩ => ⟨S4x1x4096x1024, .f32⟩
  | .hbm, ⟨63, _⟩ => ⟨S4x1x4096x1024, .f32⟩
  | .hbm, ⟨64, _⟩ => ⟨S_, .f32⟩
  | .hbm, ⟨65, _⟩ => ⟨S1x1x1x1024, .f32⟩
  | .hbm, ⟨66, _⟩ => ⟨S1x1x1x1024, .f32⟩
  | .hbm, ⟨67, _⟩ => ⟨S1x1x1x1024, .f32⟩
  | .hbm, ⟨68, _⟩ => ⟨S4x1x4096x1024, .f32⟩
  | .hbm, ⟨69, _⟩ => ⟨S4x1x4096x1024, .f32⟩
  | .hbm, ⟨70, _⟩ => ⟨S1x1x1x1024, .f32⟩
  | .hbm, ⟨71, _⟩ => ⟨S4x1x4096x1024, .f32⟩
  | .hbm, ⟨72, _⟩ => ⟨S4x1x4096x1024, .f32⟩
  | .hbm, ⟨73, _⟩ => ⟨S1x1x1x1024, .f32⟩
  | .hbm, ⟨74, _⟩ => ⟨S4x1x4096x1024, .f32⟩
  | .hbm, ⟨75, _⟩ => ⟨S4x1x4096x1024, .f32⟩
  | .hbm, ⟨76, _⟩ => ⟨S4x1x4096x1024, .f32⟩
  | _, _ => ⟨S4x1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_cst_3 : Ref sig .tc := ⟨.hbm, 56, rfl⟩
abbrev main_call0_v13 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_2 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S4x1x4096x512_0_1_2_3 : S1x1x1x512.BroadcastsInDim S4x1x4096x512 (![0, 1, 2, 3] : Fin 4 → Fin S4x1x4096x512.rank)
  bcast_S_S4x1x4096x4096 : S_.BroadcastsInDim S4x1x4096x4096 (![] : Fin 0 → Fin S4x1x4096x4096.rank)
  bcast_S1024_S1x1x1x1024_3 : S1024.BroadcastsInDim S1x1x1x1024 (![3] : Fin 1 → Fin S1x1x1x1024.rank)
  bcast_S1x1x1x1024_S4x1x4096x1024_0_1_2_3 : S1x1x1x1024.BroadcastsInDim S4x1x4096x1024 (![0, 1, 2, 3] : Fin 4 → Fin S4x1x4096x1024.rank)
  reducesTo_S4x1x4096x1024_S1024_d0_1_2 : S4x1x4096x1024.ReducesTo [0, 1, 2] S1024
  h_S_ : 0 < S_.numel
  bcast_S_S1x1x1x1024 : S_.BroadcastsInDim S1x1x1x1024 (![] : Fin 0 → Fin S1x1x1x1024.rank)
  dot_S4x1x4096x1024_S512x1024_S4x1x4096x512_3_1_012_0_n_n_wf : DotDims.WF S4x1x4096x1024 S512x1024 S4x1x4096x512 [3] [1] [0, 1, 2] [0] [] []
  dot_S4x1x4096x512_S4x1x4096x512_S4x1x4096x4096_3_3_2_2_01_01_wf : DotDims.WF S4x1x4096x512 S4x1x4096x512 S4x1x4096x4096 [3] [3] [2] [2] [0, 1] [0, 1]
  dot_S4x1x4096x4096_S4x1x4096x512_S4x1x4096x512_3_2_2_3_01_01_wf : DotDims.WF S4x1x4096x4096 S4x1x4096x512 S4x1x4096x512 [3] [2] [2] [3] [0, 1] [0, 1]
  dot_S4x1x4096x512_S1024x512_S4x1x4096x1024_3_1_012_0_n_n_wf : DotDims.WF S4x1x4096x512 S1024x512 S4x1x4096x1024 [3] [1] [0, 1, 2] [0] [] []

variable [Facts₀]

def dot_S4x1x4096x1024_S512x1024_S4x1x4096x512_3_1_012_0_n_n : DotDims S4x1x4096x1024 S512x1024 S4x1x4096x512 where
  lhsContracting := [3]
  rhsContracting := [1]
  lhsNonContracting := [0, 1, 2]
  rhsNonContracting := [0]
  lhsBatch := []
  rhsBatch := []
  wf := dot_S4x1x4096x1024_S512x1024_S4x1x4096x512_3_1_012_0_n_n_wf
def dot_S4x1x4096x512_S4x1x4096x512_S4x1x4096x4096_3_3_2_2_01_01 : DotDims S4x1x4096x512 S4x1x4096x512 S4x1x4096x4096 where
  lhsContracting := [3]
  rhsContracting := [3]
  lhsNonContracting := [2]
  rhsNonContracting := [2]
  lhsBatch := [0, 1]
  rhsBatch := [0, 1]
  wf := dot_S4x1x4096x512_S4x1x4096x512_S4x1x4096x4096_3_3_2_2_01_01_wf
def dot_S4x1x4096x4096_S4x1x4096x512_S4x1x4096x512_3_2_2_3_01_01 : DotDims S4x1x4096x4096 S4x1x4096x512 S4x1x4096x512 where
  lhsContracting := [3]
  rhsContracting := [2]
  lhsNonContracting := [2]
  rhsNonContracting := [3]
  lhsBatch := [0, 1]
  rhsBatch := [0, 1]
  wf := dot_S4x1x4096x4096_S4x1x4096x512_S4x1x4096x512_3_2_2_3_01_01_wf
def dot_S4x1x4096x512_S1024x512_S4x1x4096x1024_3_1_012_0_n_n : DotDims S4x1x4096x512 S1024x512 S4x1x4096x1024 where
  lhsContracting := [3]
  rhsContracting := [1]
  lhsNonContracting := [0, 1, 2]
  rhsNonContracting := [0]
  lhsBatch := []
  rhsBatch := []
  wf := dot_S4x1x4096x512_S1024x512_S4x1x4096x1024_3_1_012_0_n_n_wf

class Facts : Prop extends Facts₀ where

variable [Facts]
-- ==== Proof.KB.GramDefs.lean ====
import proofs.«161341_j29137058136126_1_alg».proof.Proof.Gen.Kernel.Launch
import proofs.«161341_j29137058136126_1_alg».proof.Proof.Gen.Kernel.Skeleton
import proofs.«161341_j29137058136126_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)

abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem idleAt_5_First : ∀ t : Fin cfg0.N, cond0 (grid0.coords t) → ¬cond1 (grid0.coords t) → cfg0.idle 5 (grid0.coords t) = true := by decide +kernel
theorem noFlush_5_First : ∀ t : Fin cfg0.N, cond0 (grid0.coords t) → ¬cond1 (grid0.coords t) → (cfg0.win 5).flush t = false := by decide +kernel
theorem idleAt_5_Mid : ∀ t : Fin cfg0.N, ¬cond0 (grid0.coords t) → ¬cond1 (grid0.coords t) → cfg0.idle 5 (grid0.coords t) = true := by decide +kernel
theorem noFlush_5_Mid : ∀ t : Fin cfg0.N, ¬cond0 (grid0.coords t) → ¬cond1 (grid0.coords t) → (cfg0.win 5).flush t = false := by decide +kernel
theorem liveAt_5_Last : ∀ t : Fin cfg0.N, ¬cond0 (grid0.coords t) → cond1 (grid0.coords t) → cfg0.idle 5 (grid0.coords t) = false := by decide +kernel

abbrev ms_0 (t : Fin cfg0.N) : Memref sig .tc .vmem S1x512x1024 .f32 := win0_0.stage (cfg0.slots t 0)
abbrev ms_1 (t : Fin cfg0.N) : Memref sig .tc .vmem S1024x512 .f32 := win0_1.stage (cfg0.slots t 1)
abbrev ms_2 (t : Fin cfg0.N) : Memref sig .tc .vmem S512 .f32 := win0_2.stage (cfg0.slots t 2)
abbrev ms_3 (t : Fin cfg0.N) : Memref sig .tc .vmem S1024x512 .f32 := win0_3.stage (cfg0.slots t 3)
abbrev ms_4 (t : Fin cfg0.N) : Memref sig .tc .vmem S512 .f32 := win0_4.stage (cfg0.slots t 4)
abbrev ms_5 (t : Fin cfg0.N) : Memref sig .tc .vmem S1x512x512 .f32 := win0_5.stage (cfg0.slots t 5)
abbrev scM : Memref sig .tc .vmem S512x512 .f32 := Memref.whole cc0_scratch0

abbrev restBut (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop(iprop(iprop((∃ d, owns (c : Thread nD τ) scM fullShare d)) ∗ restBut (F := F) c) ∗ (∃ r, prngReg c r)) := by
  unfold Pipeline.ΦA; rw [scopedRest0_split]; simp only [scM, owns_whole]; try rfl

-- The accumulator after point `n`: the tile's update of the reset value at a batch's first tile, else of what the point before left.
def accAt (c : Dev nD) (n : ℕ) (hn : n < cfg0.N) : Vec F S512x512 .f32 :=
  k0_pay2 (blk V c 0 ⟨n, hn⟩) (blk V c 1 ⟨n, hn⟩) (blk V c 3 ⟨n, hn⟩) (blk V c 2 ⟨n, hn⟩) (blk V c 4 ⟨n, hn⟩)
    (if h : n % 8 = 0 then k0_pay1 (F := F) else accAt c (n - 1) (by omega))
termination_by n
decreasing_by omega

theorem accAt_first (c : Dev nD) (t : Fin cfg0.N) (h : t.val % 8 = 0) :
    accAt V c t.val t.isLt = k0_pay2 (blk V c 0 t) (blk V c 1 t) (blk V c 3 t) (blk V c 2 t) (blk V c 4 t) (k0_pay1 (F := F)) := by
  rw [accAt, dif_pos h]

theorem accAt_next (c : Dev nD) (t : Fin cfg0.N) (h : ¬t.val % 8 = 0) :
    accAt V c t.val t.isLt = k0_pay2 (blk V c 0 t) (blk V c 1 t) (blk V c 3 t) (blk V c 2 t) (blk V c 4 t) (accAt V c (t.val - 1) (Nat.lt_of_le_of_lt (Nat.sub_le _ _) t.isLt)) := by
  rw [accAt, dif_neg h]

-- The invariant before point `n`: the entry invariant at the start, afterwards the accumulator owned at what the point before left.
def PhiS (c : Dev nD) : (n : ℕ) → n ≤ cfg0.N → sProp 𝕄
  | 0, _ => Pipeline.ΦA spec0 c
  | n + 1, hn => iprop(iprop(owns (c : Thread nD τ) scM fullShare (accAt V c n hn) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k0_pay3 (accAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := rfl
theorem q_eq (c : Dev nD) (w : Fin cfg0.W) : (dat V c).q w = fullShare := rfl
theorem owed_eq (c : Dev nD) (t : Fin (cfg0.N + 1)) : (dat V c).owed t = 0 := rfl

theorem PhiS_castSucc (c : Dev nD) (t : Fin cfg0.N) :
    (dat V c).Φ t.castSucc = PhiS V c t.val (Nat.le_of_lt t.isLt) := rfl

theorem after_0 (c : Dev nD) (t : Fin cfg0.N) : (dat V c).after 0 t = blk V c 0 t := rfl
theorem after_1 (c : Dev nD) (t : Fin cfg0.N) : (dat V c).after 1 t = blk V c 1 t := rfl
theorem after_2 (c : Dev nD) (t : Fin cfg0.N) : (dat V c).after 2 t = blk V c 2 t := rfl
theorem after_3 (c : Dev nD) (t : Fin cfg0.N) : (dat V c).after 3 t = blk V c 3 t := rfl
theorem after_4 (c : Dev nD) (t : Fin cfg0.N) : (dat V c).after 4 t = blk V c 4 t := rfl
theorem after_5 (c : Dev nD) (t : Fin cfg0.N) : (dat V c).after 5 t = k0_pay3 (accAt V c t.val t.isLt) := rfl

theorem before_0 (c : Dev nD) (t : Fin cfg0.N) (d) : (dat V c).before 0 t d = blk V c 0 t :=
  (dat V c).before_in_eq_fetched 0 rfl (fun _ => rfl) (fun _ _ _ => rfl) (fun _ => rfl) t d
theorem before_1 (c : Dev nD) (t : Fin cfg0.N) (d) : (dat V c).before 1 t d = blk V c 1 t :=
  (dat V c).before_in_eq_fetched 1 rfl (fun _ => rfl) (fun _ _ _ => rfl) (fun _ => rfl) t d
theorem before_2 (c : Dev nD) (t : Fin cfg0.N) (d) : (dat V c).before 2 t d = blk V c 2 t :=
  (dat V c).before_in_eq_fetched 2 rfl (fun _ => rfl) (fun _ _ _ => rfl) (fun _ => rfl) t d
theorem before_3 (c : Dev nD) (t : Fin cfg0.N) (d) : (dat V c).before 3 t d = blk V c 3 t :=
  (dat V c).before_in_eq_fetched 3 rfl (fun _ => rfl) (fun _ _ _ => rfl) (fun _ => rfl) t d
theorem before_4 (c : Dev nD) (t : Fin cfg0.N) (d) : (dat V c).before 4 t d = blk V c 4 t :=
  (dat V c).before_in_eq_fetched 4 rfl (fun _ => rfl) (fun _ _ _ => rfl) (fun _ => rfl) t d

theorem hin (c : Dev nD) : (Pipeline.ΦA spec0 c : sProp 𝕄) ⊢ (dat V c).Φ 0 := .refl

-- After the last point the accumulator's named contents are forgotten.
theorem hout (c : Dev nD) : (dat V c).Φ (Fin.last cfg0.N) ⊢ (Pipeline.ΦA spec0 c : sProp 𝕄) := by
  rw [PhiA_eq]; exact sep_mono_l (sep_mono_l (sExists_intro ⟨_, rfl⟩))

end Cert.Kernel.Gram

end
-- ==== Proof.WholeStore.lean ====
import Idealize.ShloMosaic.Lib.Pipeline.Value

noncomputable section

namespace Cert.WholeStore

open Idealize.ShloMosaic

variable {Val : EltTy → Type} [∀ e, Nonempty (Val e)] {S : Shape} {e : EltTy} {sig : RefSig} {κ : Kind} {sp : Space}

/-- The zero offsets of an access to a whole buffer, however they are spelt. -/
theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- A buffer whose last store went through its whole extent reads back as that store's payload, whatever it held and whatever was stored before. -/
theorem read_writes (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h
  exact (View.read_writes_eq_canon v f _ fun y => ⟨_, List.mem_cons_self .., by
    show y ∈ (Rect.whole S).set; rw [Rect.set_whole]; exact Finset.mem_univ y⟩).trans (View.canon_cons_unit_zero rfl inb w L)

end Cert.WholeStore

end
-- ==== Proof.KB.GramRunFirst.lean ====
import proofs.«161341_j29137058136126_1_alg».proof.Proof.KB.GramDefs
import proofs.«161341_j29137058136126_1_alg».proof.Proof.WholeStore

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1024x512 .f32) (harg5 : arg5.IsWhole)
  (arg6 : Memref sig .tc .vmem S512 .f32) (harg6 : arg6.IsWhole) (arg7 : Memref sig .tc .vmem S1x512x512 .f32) (harg7 : arg7.IsWhole)
  (arg8 : Memref sig .tc .vmem S512x512 .f32) (harg8 : arg8.IsWhole) (hc0 : cond0 i) (hc1 : ¬cond1 i)
  (x0 : Vec F S1x512x1024 .f32) (x1 : Vec F S1024x512 .f32) (x2 : Vec F S512 .f32) (x3 : Vec F S1024x512 .f32) (x4 : Vec F S512 .f32)

include hc0 hc1 in
set_option maxHeartbeats 1000000 in
/-- The body at a batch's first tile: the accumulator, whatever it held, ends at the tile's update of the reset value; the output block is not touched. -/
theorem run_First (xi5 : Vec F S1x512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k0_pay2 x0 x1 x3 x2 x4 (k0_pay1 (F := F)))) -∗ K ⟨⟩))
      ⊢ wp frame (wpE (defs₀ (F := F)) Variants.none c none) E (cc0__m_kernel i arg2 harg2 arg3 harg3 arg4 harg4 arg5 harg5 arg6 harg6 arg7 harg7 arg8 harg8) K := by
  simp only [cc0__m_kernel_eq_skeleton]; unfold cc0__m_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr; swap; iexact HS; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg8.read_unread,
    View.ld_unit_zero (S := S1x512x1024) hz3, View.ld_unit_zero (S := S1024x512) hz2, View.ld_unit_zero (S := S512) hz1,
    View.ld_unit_zero (S := S512x512) hz2, View.readCov_unit_zero (S := S512x512) _ hz2]

end Cert.Kernel.Gram

end
-- ==== Proof.KB.GramRunMid.lean ====
import proofs.«161341_j29137058136126_1_alg».proof.Proof.KB.GramRunFirst

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1024x512 .f32) (harg5 : arg5.IsWhole)
  (arg6 : Memref sig .tc .vmem S512 .f32) (harg6 : arg6.IsWhole) (arg7 : Memref sig .tc .vmem S1x512x512 .f32) (harg7 : arg7.IsWhole)
  (arg8 : Memref sig .tc .vmem S512x512 .f32) (harg8 : arg8.IsWhole) (hc0 : ¬cond0 i) (hc1 : ¬cond1 i)
  (x0 : Vec F S1x512x1024 .f32) (x1 : Vec F S1024x512 .f32) (x2 : Vec F S512 .f32) (x3 : Vec F S1024x512 .f32) (x4 : Vec F S512 .f32) (xs : Vec F S512x512 .f32)

include hc0 hc1 in
set_option maxHeartbeats 1000000 in
/-- The body at a tile inside a batch: the accumulator ends at the tile's update of what it held. -/
theorem run_Mid (xi5 : Vec F S1x512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k0_pay2 x0 x1 x3 x2 x4 xs)) -∗ K ⟨⟩))
      ⊢ wp frame (wpE (defs₀ (F := F)) Variants.none c none) E (cc0__m_kernel i arg2 harg2 arg3 harg3 arg4 harg4 arg5 harg5 arg6 harg6 arg7 harg7 arg8 harg8) K := by
  simp only [cc0__m_kernel_eq_skeleton]; unfold cc0__m_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr; swap; iexact HS; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg8.read_unread,
    View.ld_unit_zero (S := S1x512x1024) hz3, View.ld_unit_zero (S := S1024x512) hz2, View.ld_unit_zero (S := S512) hz1,
    View.ld_unit_zero (S := S512x512) hz2, View.readCov_unit_zero (S := S512x512) _ hz2]

end Cert.Kernel.Gram

end
-- ==== Proof.KB.GramRunLast.lean ====
import proofs.«161341_j29137058136126_1_alg».proof.Proof.KB.GramRunMid

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1024x512 .f32) (harg5 : arg5.IsWhole)
  (arg6 : Memref sig .tc .vmem S512 .f32) (harg6 : arg6.IsWhole) (arg7 : Memref sig .tc .vmem S1x512x512 .f32) (harg7 : arg7.IsWhole)
  (arg8 : Memref sig .tc .vmem S512x512 .f32) (harg8 : arg8.IsWhole) (hc0 : ¬cond0 i) (hc1 : cond1 i)
  (x0 : Vec F S1x512x1024 .f32) (x1 : Vec F S1024x512 .f32) (x2 : Vec F S512 .f32) (x3 : Vec F S1024x512 .f32) (x4 : Vec F S512 .f32) (xs : Vec F S512x512 .f32)

include hc0 hc1 in
set_option maxHeartbeats 1000000 in
/-- The body at a batch's last tile: the accumulator ends at the tile's update of what it held, and the output block at that accumulator scaled. -/
theorem run_Last (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 (k0_pay2 x0 x1 x3 x2 x4 xs)) ∗ owns (c : Thread nD τ) arg8 fullShare (k0_pay2 x0 x1 x3 x2 x4 xs)) -∗ K ⟨⟩))
      ⊢ wp frame (wpE (defs₀ (F := F)) Variants.none c none) E (cc0__m_kernel i arg2 harg2 arg3 harg3 arg4 harg4 arg5 harg5 arg6 harg6 arg7 harg7 arg8 harg8) K := by
  simp only [cc0__m_kernel_eq_skeleton]; unfold cc0__m_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  iexists _; isplitr; swap; iexact H5; ipureintro; rotate_left
  iexists _; isplitr; swap; iexact HS; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg8.read_unread,
    View.ld_unit_zero (S := S1x512x1024) hz3, View.ld_unit_zero (S := S1024x512) hz2, View.ld_unit_zero (S := S512) hz1,
    View.ld_unit_zero (S := S512x512) hz2, View.readCov_unit_zero (S := S512x512) _ hz2]

end Cert.Kernel.Gram

end
-- ==== Proof.KB.GramFrame.lean ====
import proofs.«161341_j29137058136126_1_alg».proof.Proof.KB.GramRunLast

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- What it hands back. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

/-- Before any point the invariant yields the accumulator at SOME contents: all a batch's first tile needs. -/
theorem Phi_any (c : Dev nD) (t : Fin cfg0.N) :
    (dat V c).Φ t.castSucc ⊢ (iprop(iprop((∃ d, owns (c : Thread nD τ) scM fullShare d) ∗ restBut (F := F) c) ∗ (∃ r, prngReg c r)) : sProp 𝕄) := by
  by_cases hz : t.val = 0
  · rw [PhiS_castSucc V c t, PhiS_zero V c _ _ hz, PhiA_eq]
  · rw [PhiS_castSucc V c t, PhiS_pos V c _ _ hz]
    iintro ⟨⟨HS, HR⟩, Hg⟩
    iframe HR Hg
    iexists _; iexact HS

/-- The body at any point, by the point's place in its batch: the case's run, then the accumulator (and at a last tile the output block) read back. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  by_cases h0 : t.val % 8 = 0
  · have hc0 : cond0 (grid0.coords t) := (hcond0 t).mpr h0
    have hc1 : ¬cond1 (grid0.coords t) := fun h => by have := (hcond1 t).mp h; omega
    rw [Dat.leavesExact_idle (dat V c) 5 t (idleAt_5_First t hc0 hc1) (noFlush_5_First t hc0 hc1), accAt_first V c t h0]
    iintro ⟨HΦ, Ho, ⟨%d0, H0⟩, ⟨%d1, H1⟩, ⟨%d2, H2⟩, ⟨%d3, H3⟩, ⟨%d4, H4⟩, ⟨%d5, H5⟩⟩
    ihave HΦ' := Phi_any V c t $$ HΦ
    icases HΦ' with ⟨⟨HS, HR⟩, Hg⟩
    iapply (run_First c (grid0.coords t) _ _ _ _ _ _ _ _ _ _ _ _ _ _ hc0 hc1 (blk V c 0 t) (blk V c 1 t) (blk V c 2 t) (blk V c 3 t) (blk V c 4 t) _ Set.univ _)
    iframe H0 H1 H2 H3 H4 H5 HS
    iintro ⟨H0, H1, H2, H3, H4, H5, HS⟩
    iframe HS HR Hg Ho H0 H1 H2 H3 H4
    iexists _; iexact H5
  · have hz : t.val ≠ 0 := fun e => h0 (by rw [e])
    have hc0 : ¬cond0 (grid0.coords t) := fun h => h0 ((hcond0 t).mp h)
    by_cases h1 : t.val % 8 = 7
    · have hc1 : cond1 (grid0.coords t) := (hcond1 t).mpr h1
      rw [show (dat V c).leavesExact 5 t = owns (c : Thread nD τ) (ms_5 t) fullShare ((dat V c).after 5 t) from by
        unfold Dat.leavesExact; rw [liveAt_5_Last t hc0 hc1], after_5]
      rw [accAt_next V c t h0, PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_Last c (grid0.coords t) _ _ _ _ _ _ _ _ _ _ _ _ _ _ hc0 hc1 (blk V c 0 t) (blk V c 1 t) (blk V c 2 t) (blk V c 3 t) (blk V c 4 t) _ Set.univ _)
      iframe H0 H1 H2 H3 H4 HS
      isplitl [H5]; · iexists _; iexact H5
      iintro ⟨H0, H1, H2, H3, H4, H5, HS⟩
      iframe
    · have hc1 : ¬cond1 (grid0.coords t) := fun h => h1 ((hcond1 t).mp h)
      rw [Dat.leavesExact_idle (dat V c) 5 t (idleAt_5_Mid t hc0 hc1) (noFlush_5_Mid t hc0 hc1), accAt_next V c t h0, PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_Mid c (grid0.coords t) _ _ _ _ _ _ _ _ _ _ _ _ _ _ hc0 hc1 (blk V c 0 t) (blk V c 1 t) (blk V c 2 t) (blk V c 3 t) (blk V c 4 t) _ _ Set.univ _)
      iframe H0 H1 H2 H3 H4 H5 HS
      iintro ⟨H0, H1, H2, H3, H4, H5, HS⟩
      iframe HS HR Hg Ho H0 H1 H2 H3 H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

theorem after_5_last (c : Dev nD) (t : Fin cfg0.N) (h : t.val % 8 = 7) :
    (dat V c).after 5 t = k0_pay3 (accAt V c t.val t.isLt) := after_5 V c t

theorem recorded_eq (c : Dev nD) (t : Fin (cfg0.N + 1)) : (dat V c).recorded t = Set.univ := rfl

end Cert.Kernel.Gram

end
-- ==== Proof.KB.ProjDefs.lean ====
import proofs.«161341_j29137058136126_1_alg».proof.Proof.Gen.Kernel.Launch
import proofs.«161341_j29137058136126_1_alg».proof.Proof.Gen.Kernel.Skeleton
import proofs.«161341_j29137058136126_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev x0At (c : Dev nD) (t : Fin cfg1.N) : Vec F S1x512x1024 .f32 := blk V c 0 t
abbrev x1At (c : Dev nD) (t : Fin cfg1.N) : Vec F S1024x512 .f32 := blk V c 1 t
abbrev x2At (c : Dev nD) (t : Fin cfg1.N) : Vec F S512 .f32 := blk V c 2 t
abbrev x3At (c : Dev nD) (t : Fin cfg1.N) : Vec F S1x512x512 .f32 := blk V c 3 t
abbrev x4At (c : Dev nD) (t : Fin cfg1.N) : Vec F S512x1024 .f32 := blk V c 4 t
abbrev x5At (c : Dev nD) (t : Fin cfg1.N) : Vec F S1024 .f32 := blk V c 5 t

abbrev cond_0 (i : grid1.Coords) : Prop := (Scalar.cmpi .ne (Scalar.extui (Scalar.cmpi .eq (BitVec.ofNat 32 (i 1).val) 0#32)) 0#32) = 1#1
theorem hcond_0 : ∀ t : Fin cfg1.N, cond_0 (grid1.coords t) ↔ t.val % 8 = 0 :=
  (by decide +kernel : ∀ t : Fin grid1.N, cond_0 (grid1.coords t) ↔ t.val % 8 = 0)

abbrev cond_1 (i : grid1.Coords) : Prop := k1_cond2 i = 1#1
theorem hcond_1 : ∀ t : Fin cfg1.N, cond_1 (grid1.coords t) ↔ t.val % 8 = 7 :=
  (by decide +kernel : ∀ t : Fin grid1.N, cond_1 (grid1.coords t) ↔ t.val % 8 = 7)

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
theorem liveAt_5 : ∀ t : Fin cfg1.N, cfg1.idle 5 (grid1.coords t) = false := by decide +kernel
theorem liveAt_6 : ∀ t : Fin cfg1.N, cfg1.idle 6 (grid1.coords t) = false := by decide +kernel

theorem idleAt_7 : ∀ t : Fin cfg1.N, ¬cond_1 (grid1.coords t) → cfg1.idle 7 (grid1.coords t) = true := by decide +kernel
theorem noFlush_7 : ∀ t : Fin cfg1.N, ¬cond_1 (grid1.coords t) → (cfg1.win 7).flush t = false := by decide +kernel
theorem liveAt_7 : ∀ t : Fin cfg1.N, cond_1 (grid1.coords t) → cfg1.idle 7 (grid1.coords t) = false := by decide +kernel
theorem idleAt_8 : ∀ t : Fin cfg1.N, ¬cond_1 (grid1.coords t) → cfg1.idle 8 (grid1.coords t) = true := by decide +kernel
theorem noFlush_8 : ∀ t : Fin cfg1.N, ¬cond_1 (grid1.coords t) → (cfg1.win 8).flush t = false := by decide +kernel
theorem liveAt_8 : ∀ t : Fin cfg1.N, cond_1 (grid1.coords t) → cfg1.idle 8 (grid1.coords t) = false := by decide +kernel

abbrev ms_0 (t : Fin cfg1.N) := win1_0.stage (cfg1.slots t 0)
abbrev ms_1 (t : Fin cfg1.N) := win1_1.stage (cfg1.slots t 1)
abbrev ms_2 (t : Fin cfg1.N) := win1_2.stage (cfg1.slots t 2)
abbrev ms_3 (t : Fin cfg1.N) := win1_3.stage (cfg1.slots t 3)
abbrev ms_4 (t : Fin cfg1.N) := win1_4.stage (cfg1.slots t 4)
abbrev ms_5 (t : Fin cfg1.N) := win1_5.stage (cfg1.slots t 5)
abbrev ms_6 (t : Fin cfg1.N) := win1_6.stage (cfg1.slots t 6)
abbrev ms_7 (t : Fin cfg1.N) := win1_7.stage (cfg1.slots t 7)
abbrev ms_8 (t : Fin cfg1.N) := win1_8.stage (cfg1.slots t 8)

abbrev scM0 : Memref sig .tc .vmem S1x1024 .f32 := Memref.whole cc1_scratch0
abbrev scM1 : Memref sig .tc .vmem S1x1024 .f32 := Memref.whole cc1_scratch1

abbrev restO (c : Dev nD) : sProp 𝕄 :=
  Pipeline.scopedRestBut (Ix := Unit) (Name := ℕ) (U := UR sig nD τ) (Lvl := ℕ) (Val := Elt F) spec1 c [cc1_scratch0, cc1_scratch1]

theorem PhiA_eq (c : Dev nD) :
    (Pipeline.ΦA spec1 c : sProp 𝕄)
      = iprop(iprop(iprop((∃ d, owns (c : Thread nD τ) scM0 fullShare d) ∗ (∃ d, owns (c : Thread nD τ) scM1 fullShare d)) ∗ restO (F := F) c) ∗ (∃ r, prngReg c r)) := by
  unfold Pipeline.ΦA
  rw [Pipeline.scopedRest_split_of_list spec1 c [cc1_scratch0, cc1_scratch1] (by decide) (by decide)]
  simp only [scM0, scM1, owns_whole, bigSepL_cons_cons, bigSepL_singleton]; try rfl

def wyAt (c : Dev nD) (t : Fin cfg1.N) : FVec F S512x1024 .f32 :=
  k1_pay7 (x0At V c t) (x1At V c t) (x2At V c t) (x3At V c t) (x4At V c t) (x5At V c t)

def acc0At (c : Dev nD) (n : ℕ) (hn : n < cfg1.N) : Vec F S1x1024 .f32 :=
  k1_pay1 (wyAt V c ⟨n, hn⟩) (if h : n % 8 = 0 then k1_pay5 (F := F) else acc0At c (n - 1) (by omega))
termination_by n
decreasing_by omega

def acc1At (c : Dev nD) (n : ℕ) (hn : n < cfg1.N) : Vec F S1x1024 .f32 :=
  k1_pay2 (wyAt V c ⟨n, hn⟩) (if h : n % 8 = 0 then k1_pay6 (F := F) else acc1At c (n - 1) (by omega))
termination_by n
decreasing_by omega

theorem acc0At_first (c : Dev nD) (t : Fin cfg1.N) (h0 : t.val % 8 = 0) :
    acc0At V c t.val t.isLt = k1_pay1 (wyAt V c t) (k1_pay5 (F := F)) := by
  rw [acc0At, dif_pos h0]

theorem acc0At_next (c : Dev nD) (t : Fin cfg1.N) (h0 : ¬t.val % 8 = 0) :
    acc0At V c t.val t.isLt = k1_pay1 (wyAt V c t) (acc0At V c (t.val - 1) (Nat.lt_of_le_of_lt (Nat.sub_le _ _) t.isLt)) := by
  rw [acc0At, dif_neg h0]

theorem acc1At_first (c : Dev nD) (t : Fin cfg1.N) (h0 : t.val % 8 = 0) :
    acc1At V c t.val t.isLt = k1_pay2 (wyAt V c t) (k1_pay6 (F := F)) := by
  rw [acc1At, dif_pos h0]

theorem acc1At_next (c : Dev nD) (t : Fin cfg1.N) (h0 : ¬t.val % 8 = 0) :
    acc1At V c t.val t.isLt = k1_pay2 (wyAt V c t) (acc1At V c (t.val - 1) (Nat.lt_of_le_of_lt (Nat.sub_le _ _) t.isLt)) := by
  rw [acc1At, dif_neg h0]

def PhiS (c : Dev nD) : (n : ℕ) → n ≤ cfg1.N → sProp 𝕄
  | 0, _ => Pipeline.ΦA spec1 c
  | n + 1, hn => iprop(iprop(iprop(owns (c : Thread nD τ) scM0 fullShare (acc0At V c n hn) ∗ owns (c : Thread nD τ) scM1 fullShare (acc1At V c n hn)) ∗ restO (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare (acc0At V c n hn) ∗ owns (c : Thread nD τ) scM1 fullShare (acc1At V c n hn)) ∗ restO (F := F) c) ∗ (∃ r, prngReg c r)) := rfl

theorem PhiS_pos (c : Dev nD) (n : ℕ) (h : n ≤ cfg1.N) (hz : n ≠ 0) :
    PhiS V c n h = iprop(iprop(iprop(owns (c : Thread nD τ) scM0 fullShare (acc0At V c (n - 1) (by omega)) ∗ owns (c : Thread nD τ) scM1 fullShare (acc1At V c (n - 1) (by omega))) ∗ restO (F := F) c) ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => k1_pay8 (x0At V c t) (x1At V c t) (x2At V c t) (x3At V c t) (x4At V c t) (x5At V c t)
    | ⟨7, _⟩ => k1_pay3 (acc0At V c t.val t.isLt)
    | ⟨8, _⟩ => k1_pay4 (acc1At V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := rfl
theorem q_eq (c : Dev nD) (w : Fin cfg1.W) : (dat V c).q w = fullShare := rfl
theorem owed_eq (c : Dev nD) (t : Fin (cfg1.N + 1)) : (dat V c).owed t = 0 := rfl

theorem PhiS_castSucc (c : Dev nD) (t : Fin cfg1.N) :
    (dat V c).Φ t.castSucc = PhiS V c t.val (Nat.le_of_lt t.isLt) := rfl

theorem after_0 (c : Dev nD) (t : Fin cfg1.N) : (dat V c).after 0 t = blk V c 0 t := rfl
theorem after_1 (c : Dev nD) (t : Fin cfg1.N) : (dat V c).after 1 t = blk V c 1 t := rfl
theorem after_2 (c : Dev nD) (t : Fin cfg1.N) : (dat V c).after 2 t = blk V c 2 t := rfl
theorem after_3 (c : Dev nD) (t : Fin cfg1.N) : (dat V c).after 3 t = blk V c 3 t := rfl
theorem after_4 (c : Dev nD) (t : Fin cfg1.N) : (dat V c).after 4 t = blk V c 4 t := rfl
theorem after_5 (c : Dev nD) (t : Fin cfg1.N) : (dat V c).after 5 t = blk V c 5 t := rfl
theorem after_6 (c : Dev nD) (t : Fin cfg1.N) :
    (dat V c).after 6 t = k1_pay8 (x0At V c t) (x1At V c t) (x2At V c t) (x3At V c t) (x4At V c t) (x5At V c t) := rfl
theorem after_7 (c : Dev nD) (t : Fin cfg1.N) : (dat V c).after 7 t = k1_pay3 (acc0At V c t.val t.isLt) := rfl
theorem after_8 (c : Dev nD) (t : Fin cfg1.N) : (dat V c).after 8 t = k1_pay4 (acc1At V c t.val t.isLt) := rfl

theorem before_0 (c : Dev nD) (t : Fin cfg1.N) (d) : (dat V c).before 0 t d = blk V c 0 t :=
  (dat V c).before_in_eq_fetched 0 rfl (fun _ => rfl) (fun _ _ _ => rfl) (fun _ => rfl) t d
theorem before_1 (c : Dev nD) (t : Fin cfg1.N) (d) : (dat V c).before 1 t d = blk V c 1 t :=
  (dat V c).before_in_eq_fetched 1 rfl (fun _ => rfl) (fun _ _ _ => rfl) (fun _ => rfl) t d
theorem before_2 (c : Dev nD) (t : Fin cfg1.N) (d) : (dat V c).before 2 t d = blk V c 2 t :=
  (dat V c).before_in_eq_fetched 2 rfl (fun _ => rfl) (fun _ _ _ => rfl) (fun _ => rfl) t d
theorem before_3 (c : Dev nD) (t : Fin cfg1.N) (d) : (dat V c).before 3 t d = blk V c 3 t :=
  (dat V c).before_in_eq_fetched 3 rfl (fun _ => rfl) (fun _ _ _ => rfl) (fun _ => rfl) t d
theorem before_4 (c : Dev nD) (t : Fin cfg1.N) (d) : (dat V c).before 4 t d = blk V c 4 t :=
  (dat V c).before_in_eq_fetched 4 rfl (fun _ => rfl) (fun _ _ _ => rfl) (fun _ => rfl) t d
theorem before_5 (c : Dev nD) (t : Fin cfg1.N) (d) : (dat V c).before 5 t d = blk V c 5 t :=
  (dat V c).before_in_eq_fetched 5 rfl (fun _ => rfl) (fun _ _ _ => rfl) (fun _ => rfl) t d

end Cert.Kernel.Proj

end
-- ==== Proof.KB.ProjRunFirst.lean ====
import proofs.«161341_j29137058136126_1_alg».proof.Proof.KB.ProjDefs
import proofs.«161341_j29137058136126_1_alg».proof.Proof.WholeStore

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

variable (c : Dev nD) (i : grid1.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1x512x512 .f32) (harg5 : arg5.IsWhole)
  (arg6 : Memref sig .tc .vmem S512x1024 .f32) (harg6 : arg6.IsWhole) (arg7 : Memref sig .tc .vmem S1024 .f32) (harg7 : arg7.IsWhole)
  (arg8 : Memref sig .tc .vmem S1x512x1024 .bf16) (harg8 : arg8.IsWhole) (arg9 : Memref sig .tc .vmem S1x1x1024 .f32) (harg9 : arg9.IsWhole)
  (arg10 : Memref sig .tc .vmem S1x1x1024 .f32) (harg10 : arg10.IsWhole) (arg11 : Memref sig .tc .vmem S1x1024 .f32) (harg11 : arg11.IsWhole)
  (arg12 : Memref sig .tc .vmem S1x1024 .f32) (harg12 : arg12.IsWhole) (hc0 : cond_0 i) (hc1 : ¬cond_1 i)
  (x0 : Vec F S1x512x1024 .f32) (x1 : Vec F S1024x512 .f32) (x2 : Vec F S512 .f32) (x3 : Vec F S1x512x512 .f32) (x4 : Vec F S512x1024 .f32) (x5 : Vec F S1024 .f32)

include hc0 hc1 in
set_option maxHeartbeats 1000000 in
/-- The body at a batch's first tile: the tile output ends at the projected tile, and both column accumulators, whatever they held, at the tile's sums over the reset values; the two column outputs are not touched. -/
theorem run_First (xi7 xi8 : Vec F S1x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k1_pay8 x0 x1 x2 x3 x4 x5) ∗ owns (c : Thread nD τ) arg9 fullShare xi7 ∗ owns (c : Thread nD τ) arg10 fullShare xi8
            ∗ owns (c : Thread nD τ) arg11 fullShare (k1_pay1 (k1_pay7 x0 x1 x2 x3 x4 x5) (k1_pay5 (F := F))) ∗ owns (c : Thread nD τ) arg12 fullShare (k1_pay2 (k1_pay7 x0 x1 x2 x3 x4 x5) (k1_pay6 (F := F)))) -∗ K ⟨⟩))
      ⊢ wp frame (wpE (defs₀ (F := F)) Variants.none c none) E (cc1__wy_kernel i arg2 harg2 arg3 harg3 arg4 harg4 arg5 harg5 arg6 harg6 arg7 harg7 arg8 harg8 arg9 harg9 arg10 harg10 arg11 harg11 arg12 harg12) K := by
  simp only [cc1__wy_kernel_eq_skeleton]; unfold cc1__wy_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7; obtain rfl := harg10.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  iexists _; isplitr; swap; iexact H6; ipureintro; rotate_left
  isplitl [H7]
  · iexists _; isplitr; · ipureintro; exact harg9.read_unread _
    iexact H7
  isplitl [H8]
  · iexists _; isplitr; · ipureintro; exact harg10.read_unread _
    iexact H8
  isplitl [HS0]
  iexists _; isplitr; swap; iexact HS0; ipureintro; rotate_left
  iexists _; isplitr; swap; iexact HS1; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg7.read_unread,
    View.ld_unit_zero (S := S1x512x1024) hz3, View.ld_unit_zero (S := S1024x512) hz2, View.ld_unit_zero (S := S512) hz1,
    View.ld_unit_zero (S := S1x512x512) hz3, View.ld_unit_zero (S := S512x1024) hz2, View.ld_unit_zero (S := S1024) hz1,
    View.readCov_unit_zero (S := S1x1024) _ hz2]

end Cert.Kernel.Proj

end
-- ==== Proof.KB.ProjRunMid.lean ====
import proofs.«161341_j29137058136126_1_alg».proof.Proof.KB.ProjRunFirst

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

variable (c : Dev nD) (i : grid1.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1x512x512 .f32) (harg5 : arg5.IsWhole)
  (arg6 : Memref sig .tc .vmem S512x1024 .f32) (harg6 : arg6.IsWhole) (arg7 : Memref sig .tc .vmem S1024 .f32) (harg7 : arg7.IsWhole)
  (arg8 : Memref sig .tc .vmem S1x512x1024 .bf16) (harg8 : arg8.IsWhole) (arg9 : Memref sig .tc .vmem S1x1x1024 .f32) (harg9 : arg9.IsWhole)
  (arg10 : Memref sig .tc .vmem S1x1x1024 .f32) (harg10 : arg10.IsWhole) (arg11 : Memref sig .tc .vmem S1x1024 .f32) (harg11 : arg11.IsWhole)
  (arg12 : Memref sig .tc .vmem S1x1024 .f32) (harg12 : arg12.IsWhole) (hc0 : ¬cond_0 i) (hc1 : ¬cond_1 i)
  (x0 : Vec F S1x512x1024 .f32) (x1 : Vec F S1024x512 .f32) (x2 : Vec F S512 .f32) (x3 : Vec F S1x512x512 .f32) (x4 : Vec F S512x1024 .f32) (x5 : Vec F S1024 .f32) (xs0 xs1 : Vec F S1x1024 .f32)

include hc0 hc1 in
set_option maxHeartbeats 1000000 in
/-- The body at a tile inside a batch: the tile output ends at the projected tile, and each column accumulator at the tile's sums added to what it held. -/
theorem run_Mid (xi7 xi8 : Vec F S1x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k1_pay8 x0 x1 x2 x3 x4 x5) ∗ owns (c : Thread nD τ) arg9 fullShare xi7 ∗ owns (c : Thread nD τ) arg10 fullShare xi8
            ∗ owns (c : Thread nD τ) arg11 fullShare (k1_pay1 (k1_pay7 x0 x1 x2 x3 x4 x5) xs0) ∗ owns (c : Thread nD τ) arg12 fullShare (k1_pay2 (k1_pay7 x0 x1 x2 x3 x4 x5) xs1)) -∗ K ⟨⟩))
      ⊢ wp frame (wpE (defs₀ (F := F)) Variants.none c none) E (cc1__wy_kernel i arg2 harg2 arg3 harg3 arg4 harg4 arg5 harg5 arg6 harg6 arg7 harg7 arg8 harg8 arg9 harg9 arg10 harg10 arg11 harg11 arg12 harg12) K := by
  simp only [cc1__wy_kernel_eq_skeleton]; unfold cc1__wy_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7; obtain rfl := harg10.eq_unread hf8
  obtain rfl := harg11.eq_unread hfs0; obtain rfl := harg12.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  iexists _; isplitr; swap; iexact H6; ipureintro; rotate_left
  isplitl [H7]
  · iexists _; isplitr; · ipureintro; exact harg9.read_unread _
    iexact H7
  isplitl [H8]
  · iexists _; isplitr; · ipureintro; exact harg10.read_unread _
    iexact H8
  isplitl [HS0]
  iexists _; isplitr; swap; iexact HS0; ipureintro; rotate_left
  iexists _; isplitr; swap; iexact HS1; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg7.read_unread,
    harg11.read_unread, harg12.read_unread,
    View.ld_unit_zero (S := S1x512x1024) hz3, View.ld_unit_zero (S := S1024x512) hz2, View.ld_unit_zero (S := S512) hz1,
    View.ld_unit_zero (S := S1x512x512) hz3, View.ld_unit_zero (S := S512x1024) hz2, View.ld_unit_zero (S := S1024) hz1,
    View.ld_unit_zero (S := S1x1024) hz2, View.readCov_unit_zero (S := S1x1024) _ hz2]

end Cert.Kernel.Proj

end
-- ==== Proof.KB.ProjRunLast.lean ====
import proofs.«161341_j29137058136126_1_alg».proof.Proof.KB.ProjRunMid

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

variable (c : Dev nD) (i : grid1.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1x512x512 .f32) (harg5 : arg5.IsWhole)
  (arg6 : Memref sig .tc .vmem S512x1024 .f32) (harg6 : arg6.IsWhole) (arg7 : Memref sig .tc .vmem S1024 .f32) (harg7 : arg7.IsWhole)
  (arg8 : Memref sig .tc .vmem S1x512x1024 .bf16) (harg8 : arg8.IsWhole) (arg9 : Memref sig .tc .vmem S1x1x1024 .f32) (harg9 : arg9.IsWhole)
  (arg10 : Memref sig .tc .vmem S1x1x1024 .f32) (harg10 : arg10.IsWhole) (arg11 : Memref sig .tc .vmem S1x1024 .f32) (harg11 : arg11.IsWhole)
  (arg12 : Memref sig .tc .vmem S1x1024 .f32) (harg12 : arg12.IsWhole) (hc0 : ¬cond_0 i) (hc1 : cond_1 i)
  (x0 : Vec F S1x512x1024 .f32) (x1 : Vec F S1024x512 .f32) (x2 : Vec F S512 .f32) (x3 : Vec F S1x512x512 .f32) (x4 : Vec F S512x1024 .f32) (x5 : Vec F S1024 .f32) (xs0 xs1 : Vec F S1x1024 .f32)

include hc0 hc1 in
set_option maxHeartbeats 1000000 in
/-- The body at a batch's last tile: as inside a batch, and the two column outputs end at the accumulators just updated. -/
theorem run_Last (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k1_pay8 x0 x1 x2 x3 x4 x5) ∗ owns (c : Thread nD τ) arg9 fullShare (k1_pay3 (k1_pay1 (k1_pay7 x0 x1 x2 x3 x4 x5) xs0)) ∗ owns (c : Thread nD τ) arg10 fullShare (k1_pay4 (k1_pay2 (k1_pay7 x0 x1 x2 x3 x4 x5) xs1))
            ∗ owns (c : Thread nD τ) arg11 fullShare (k1_pay1 (k1_pay7 x0 x1 x2 x3 x4 x5) xs0) ∗ owns (c : Thread nD τ) arg12 fullShare (k1_pay2 (k1_pay7 x0 x1 x2 x3 x4 x5) xs1)) -∗ K ⟨⟩))
      ⊢ wp frame (wpE (defs₀ (F := F)) Variants.none c none) E (cc1__wy_kernel i arg2 harg2 arg3 harg3 arg4 harg4 arg5 harg5 arg6 harg6 arg7 harg7 arg8 harg8 arg9 harg9 arg10 harg10 arg11 harg11 arg12 harg12) K := by
  simp only [cc1__wy_kernel_eq_skeleton]; unfold cc1__wy_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg11.eq_unread hfs0; obtain rfl := harg12.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  iexists _; isplitr; swap; iexact H6; ipureintro; rotate_left
  isplitl [H7]
  iexists _; isplitr; swap; iexact H7; ipureintro; rotate_left
  isplitl [H8]
  iexists _; isplitr; swap; iexact H8; ipureintro; rotate_left
  isplitl [HS0]
  iexists _; isplitr; swap; iexact HS0; ipureintro; rotate_left
  iexists _; isplitr; swap; iexact HS1; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg7.read_unread,
    harg11.read_unread, harg12.read_unread,
    View.ld_unit_zero (S := S1x512x1024) hz3, View.ld_unit_zero (S := S1024x512) hz2, View.ld_unit_zero (S := S512) hz1,
    View.ld_unit_zero (S := S1x512x512) hz3, View.ld_unit_zero (S := S512x1024) hz2, View.ld_unit_zero (S := S1024) hz1,
    View.ld_unit_zero (S := S1x1024) hz2, View.readCov_unit_zero (S := S1x1024) _ hz2]

end Cert.Kernel.Proj

end
-- ==== Proof.KB.ProjFrame.lean ====
import proofs.«161341_j29137058136126_1_alg».proof.Proof.KB.ProjRunLast

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d)))

/-- What it hands back. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

theorem Phi_any (c : Dev nD) (t : Fin cfg1.N) :
    (dat V c).Φ t.castSucc ⊢ (iprop(iprop(iprop((∃ d, owns (c : Thread nD τ) scM0 fullShare d) ∗ (∃ d, owns (c : Thread nD τ) scM1 fullShare d)) ∗ restO (F := F) c) ∗ (∃ r, prngReg c r)) : sProp 𝕄) := by
  by_cases hz : t.val = 0
  · rw [PhiS_castSucc V c t, PhiS_zero V c _ _ hz, PhiA_eq]
  · rw [PhiS_castSucc V c t, PhiS_pos V c _ _ hz]
    iintro ⟨⟨⟨HS0, HS1⟩, Hr⟩, Hg⟩
    iframe Hr Hg
    isplitl [HS0]; · iexists _; iexact HS0
    iexists _; iexact HS1

/-- The body at any point, by the point's place in its batch: the case's run, then each written buffer read back. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  rw [show (dat V c).leavesExact 5 t = owns (c : Thread nD τ) (ms_5 t) fullShare ((dat V c).after 5 t) from by
    unfold Dat.leavesExact; rw [liveAt_5 t], after_5]
  rw [show (dat V c).leavesExact 6 t = owns (c : Thread nD τ) (ms_6 t) fullShare ((dat V c).after 6 t) from by
    unfold Dat.leavesExact; rw [liveAt_6 t], after_6]
  by_cases h0 : t.val % 8 = 0
  · have hc0 : cond_0 (grid1.coords t) := (hcond_0 t).mpr h0
    have hc1 : ¬cond_1 (grid1.coords t) := fun h => by have := (hcond_1 t).mp h; omega
    rw [Dat.leavesExact_idle (dat V c) 7 t (idleAt_7 t hc1) (noFlush_7 t hc1),
      Dat.leavesExact_idle (dat V c) 8 t (idleAt_8 t hc1) (noFlush_8 t hc1)]
    rw [acc0At_first V c t h0, acc1At_first V c t h0]
    unfold wyAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := Phi_any V c t $$ HΦ
    icases HΦ' with ⟨⟨⟨HS0, HS1⟩, Hr⟩, Hg⟩
    iapply (run_First c (grid1.coords t) _ _ _ _ _ _ _ _ _ _ _ _ _ _ _ _ _ _ _ _ _ _ hc0 hc1 (x0At V c t) (x1At V c t) (x2At V c t) (x3At V c t) (x4At V c t) (x5At V c t) _ _ Set.univ _)
    iframe H0 H1 H2 H3 H4 H5 H7 H8 HS0 HS1
    isplitl [H6]; · iexists _; iexact H6
    iintro ⟨H0, H1, H2, H3, H4, H5, H6, H7, H8, HS0, HS1⟩
    iframe HS0 HS1 Hr Hg Ho H0 H1 H2 H3 H4 H5 H6
    isplitl [H7]; · iexists _; iexact H7
    iexists _; iexact H8
  · have hz : t.val ≠ 0 := fun h => h0 (by rw [h])
    have hc0 : ¬cond_0 (grid1.coords t) := fun h => h0 ((hcond_0 t).mp h)
    by_cases h7 : t.val % 8 = 7
    · have hc1 : cond_1 (grid1.coords t) := (hcond_1 t).mpr h7
      rw [show (dat V c).leavesExact 7 t = owns (c : Thread nD τ) (ms_7 t) fullShare ((dat V c).after 7 t) from by
        unfold Dat.leavesExact; rw [liveAt_7 t hc1], after_7]
      rw [show (dat V c).leavesExact 8 t = owns (c : Thread nD τ) (ms_8 t) fullShare ((dat V c).after 8 t) from by
        unfold Dat.leavesExact; rw [liveAt_8 t hc1], after_8]
      rw [acc0At_next V c t h0, acc1At_next V c t h0]
      unfold wyAt
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_Last c (grid1.coords t) _ _ _ _ _ _ _ _ _ _ _ _ _ _ _ _ _ _ _ _ _ _ hc0 hc1 (x0At V c t) (x1At V c t) (x2At V c t) (x3At V c t) (x4At V c t) (x5At V c t) _ _ Set.univ _)
      iframe H0 H1 H2 H3 H4 H5 HS0 HS1
      isplitl [H6]; · iexists _; iexact H6
      isplitl [H7]; · iexists _; iexact H7
      isplitl [H8]; · iexists _; iexact H8
      iintro ⟨H0, H1, H2, H3, H4, H5, H6, H7, H8, HS0, HS1⟩
      iframe
    · have hc1 : ¬cond_1 (grid1.coords t) := fun h => h7 ((hcond_1 t).mp h)
      rw [Dat.leavesExact_idle (dat V c) 7 t (idleAt_7 t hc1) (noFlush_7 t hc1),
        Dat.leavesExact_idle (dat V c) 8 t (idleAt_8 t hc1) (noFlush_8 t hc1)]
      rw [acc0At_next V c t h0, acc1At_next V c t h0]
      unfold wyAt
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_Mid c (grid1.coords t) _ _ _ _ _ _ _ _ _ _ _ _ _ _ _ _ _ _ _ _ _ _ hc0 hc1 (x0At V c t) (x1At V c t) (x2At V c t) (x3At V c t) (x4At V c t) (x5At V c t) _ _ _ _ Set.univ _)
      iframe H0 H1 H2 H3 H4 H5 H7 H8 HS0 HS1
      isplitl [H6]; · iexists _; iexact H6
      iintro ⟨H0, H1, H2, H3, H4, H5, H6, H7, H8, HS0, HS1⟩
      iframe HS0 HS1 Hr Hg Ho H0 H1 H2 H3 H4 H5 H6
      isplitl [H7]; · iexists _; iexact H7
      iexists _; iexact H8

/-- The library's body obligation, at every point. -/
theorem body_obligation (c : Dev nD) : BodyObligation (dat (F := F) V c) (defs₀ (F := F)) Variants.none () Set.univ := fun t => by
  rw [bigSep_W1, bigSep_W1]
  exact sound_body V c t

theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨⟨HS0, HS1⟩, Hr⟩, Hg⟩
  iframe Hr Hg
  isplitl [HS0]; · iexists _; iexact HS0
  iexists _; iexact HS1

theorem hout (c : Dev nD) : (dat V c).Φ (Fin.last cfg1.N) ⊢ (Pipeline.ΦA spec1 c : sProp 𝕄) :=
  Phi_out V c _ (by rw [Fin.val_last]; have : cfg1.N = 32 := N_1; omega)

end Cert.Kernel.Proj

end
-- ==== Proof.KB.NormFrame.lean ====
import proofs.«161341_j29137058136126_1_alg».proof.Proof.Gen.Kernel.Launch
import proofs.«161341_j29137058136126_1_alg».proof.Proof.Gen.Kernel.Skeleton
import proofs.«161341_j29137058136126_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rT : Rect S1x512x1024 := Rect.unit (s := S1x512x1024) ![0, 0, 0] S1x512x1024.size inb_S1x512x1024_S1x512x1024_0_0_0
abbrev rC : Rect S1024 := Rect.unit (s := S1024) ![0] S1024.size inb_S1024_S1024_0

theorem cover6 (p0 : Vec F S1x512x1024 .f32) (y : S1x512x1024.Idx) :
    ∃ pc ∈ ([⟨rT, p0⟩] : List (View.Piece (Elt F) S1x512x1024 .f32)), y ∈ pc.1.set :=
  View.cover_of_tiled [⟨rT, p0⟩] S1x512x1024.size (by rfl) y

theorem hzT : (![0, 0, 0] : Fin 3 → Nat) = fun _ => 0 := funext fun a => by fin_cases a <;> rfl
theorem hzC : (![0] : Fin 1 → Nat) = fun _ => 0 := funext fun a => by fin_cases a <;> rfl

-- A single piece over the whole shape at offset zero is its payload, and a whole read at offset zero is the contents.
theorem canon_pay (x0 : Vec F S1x512x1024 .bf16) (x1 : Vec F S1x512x1024 .f32) (x2 x3 x4 x5 : Vec F S1024 .f32) :
    (View.canon [⟨rT, k2_pay1 (View.ld x0 rT) (View.ld x1 rT) (View.ld x3 rC) (View.ld x2 rC) (View.ld x4 rC) (View.ld x5 rC)⟩] : Vec F S1x512x1024 .f32) = k2_pay1 x0 x1 x3 x2 x4 x5 := by
  rw [View.canon_unit_zero hzT]
  simp only [View.ld_unit_zero (S := S1x512x1024) hzT, View.ld_unit_zero (S := S1024) hzC]

theorem sound_kernel (c : Dev nD) (E : Set ℕ) (i : grid2.Coords)
    (arg0 : Memref sig .tc .vmem S1x512x1024 .bf16) (harg0 : arg0.IsWhole) (arg1 : Memref sig .tc .vmem S1x512x1024 .f32) (harg1 : arg1.IsWhole)
    (arg2 : Memref sig .tc .vmem S1024 .f32) (harg2 : arg2.IsWhole) (arg3 : Memref sig .tc .vmem S1024 .f32) (harg3 : arg3.IsWhole)
    (arg4 : Memref sig .tc .vmem S1024 .f32) (harg4 : arg4.IsWhole) (arg5 : Memref sig .tc .vmem S1024 .f32) (harg5 : arg5.IsWhole)
    (arg6 : Memref sig .tc .vmem S1x512x1024 .f32) (harg6 : arg6.IsWhole)
    (x0 : Vec F S1x512x1024 .bf16) (x1 : Vec F S1x512x1024 .f32) (x2 x3 x4 x5 : Vec F S1024 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (k2_pay1 x0 x1 x3 x2 x4 x5)) -∗ K ⟨⟩))
      ⊢ wp frame (wpE (defs₀ (F := F)) Variants.none c none) E (cc2__bn_kernel i arg0 harg0 arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover6 _)).trans (canon_pay _ _ _ _ _ _)

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => k2_pay1 (blk V c 0 t) (blk V c 1 t) (blk V c 3 t) (blk V c 2 t) (blk V c 4 t) (blk V c 5 t)
  Φ _ := Pipeline.ΦA spec2 c
  q _ := fullShare
  owed _ := 0

theorem A_eq (c : Dev nD) (w : Fin cfg2.W) : (dat V c).A w = V c (Pipeline.arrRef spec2 w) := rfl
theorem q_eq (c : Dev nD) (w : Fin cfg2.W) : (dat V c).q w = fullShare := rfl
theorem owed_eq (c : Dev nD) (t : Fin (cfg2.N + 1)) : (dat V c).owed t = 0 := rfl

theorem after_6 (c : Dev nD) (t : Fin cfg2.N) :
    (dat V c).after 6 t = k2_pay1 (blk V c 0 t) (blk V c 1 t) (blk V c 3 t) (blk V c 2 t) (blk V c 4 t) (blk V c 5 t) := rfl

theorem before_0 (c : Dev nD) (t : Fin cfg2.N) (d) : (dat V c).before 0 t d = (dat V c).after 0 t :=
  (dat V c).before_in_eq_fetched 0 rfl (fun _ => rfl) (fun _ _ _ => rfl) (fun _ => rfl) t d
theorem before_1 (c : Dev nD) (t : Fin cfg2.N) (d) : (dat V c).before 1 t d = (dat V c).after 1 t :=
  (dat V c).before_in_eq_fetched 1 rfl (fun _ => rfl) (fun _ _ _ => rfl) (fun _ => rfl) t d
theorem before_2 (c : Dev nD) (t : Fin cfg2.N) (d) : (dat V c).before 2 t d = (dat V c).after 2 t :=
  (dat V c).before_in_eq_fetched 2 rfl (fun _ => rfl) (fun _ _ _ => rfl) (fun _ => rfl) t d
theorem before_3 (c : Dev nD) (t : Fin cfg2.N) (d) : (dat V c).before 3 t d = (dat V c).after 3 t :=
  (dat V c).before_in_eq_fetched 3 rfl (fun _ => rfl) (fun _ _ _ => rfl) (fun _ => rfl) t d
theorem before_4 (c : Dev nD) (t : Fin cfg2.N) (d) : (dat V c).before 4 t d = (dat V c).after 4 t :=
  (dat V c).before_in_eq_fetched 4 rfl (fun _ => rfl) (fun _ _ _ => rfl) (fun _ => rfl) t d
theorem before_5 (c : Dev nD) (t : Fin cfg2.N) (d) : (dat V c).before 5 t d = (dat V c).after 5 t :=
  (dat V c).before_in_eq_fetched 5 rfl (fun _ => rfl) (fun _ _ _ => rfl) (fun _ => rfl) t d

-- The kernel's triple at the point's blocks; the invariant and the dues are framed.
theorem body_obligation (c : Dev nD) : BodyObligation (dat (F := F) V c) (defs₀ (F := F)) Variants.none () Set.univ := fun t => by
  rw [bigSep_W2, bigSep_W2]
  simp only [before_0, before_1, before_2, before_3, before_4, before_5]
  rw [show (dat V c).Φ t.succ = (dat V c).Φ t.castSucc from rfl, show (dat V c).owesAt () t.succ = (dat V c).owesAt () t.castSucc from rfl,
    show (dat V c).after 6 t = k2_pay1 ((dat V c).after 0 t) ((dat V c).after 1 t) ((dat V c).after 3 t) ((dat V c).after 2 t) ((dat V c).after 4 t) ((dat V c).after 5 t) from rfl]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ ((dat V c).after 0 t) ((dat V c).after 1 t) ((dat V c).after 2 t) ((dat V c).after 3 t) ((dat V c).after 4 t) ((dat V c).after 5 t) _)
  iframe H0 H1 H2 H3 H4 H5
  isplitl [H6]; · iexists _; iexact H6
  iintro ⟨H0, H1, H2, H3, H4, H5, H6⟩
  iframe

theorem hin (c : Dev nD) : (Pipeline.ΦA spec2 c : sProp 𝕄) ⊢ (dat V c).Φ 0 := .refl

theorem hout (c : Dev nD) : (dat V c).Φ (Fin.last cfg2.N) ⊢ (Pipeline.ΦA spec2 c : sProp 𝕄) := .refl

end Cert.Kernel.Norm

end
-- ==== Proof.KB.Launch.lean ====
import proofs.«161341_j29137058136126_1_alg».proof.Proof.KB.GramFrame
import proofs.«161341_j29137058136126_1_alg».proof.Proof.KB.ProjFrame
import proofs.«161341_j29137058136126_1_alg».proof.Proof.KB.NormFrame
import proofs.«161341_j29137058136126_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (Gram.dat (V1 m ρ) c).arrAt w cfg0.N
theorem W2_arr (c : Dev nD) (w : Fin cfg0.W) :
    W2 m ρ c (Proc.devRef .tc (Pipeline.arrRef spec0 w)) = (Gram.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (Proj.dat (V2 m ρ) c).arrAt w cfg1.N
theorem W3_arr (c : Dev nD) (w : Fin cfg1.W) :
    W3 m ρ c (Proc.devRef .tc (Pipeline.arrRef spec1 w)) = (Proj.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (Norm.dat (V4 m ρ) c).arrAt w cfg2.N
theorem W5_arr (c : Dev nD) (w : Fin cfg2.W) :
    W5 m ρ c (Proc.devRef .tc (Pipeline.arrRef spec2 w)) = (Norm.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev W6 : Dev nD → Valuation τ sig (Elt F) := fun c => StableHlo.after hostOps3 (W5 m ρ c)

def pdats : (p : Fin 3) → (c : Dev nD) → Dat τ (Elt F) Unit ℕ (UR sig nD τ) ℕ (Pipeline.pin (pcfgs (F := F)) adm p) c
  | ⟨0, _⟩ => fun c => Gram.dat (V1 m ρ) c
  | ⟨1, _⟩ => fun c => Proj.dat (V2 m ρ) c
  | ⟨2, _⟩ => fun c => Norm.dat (V4 m ρ) c

-- Off a region's arrays nothing changes, and an input window's array is handed back as it was entered.
theorem keep_of {cfg : Cfg sig Λ₀} {c : Dev nD} (d : Dat τ (Elt F) Unit ℕ (UR sig nD τ) ℕ cfg c) (Wi Wo : Valuation τ sig (Elt F))
    (harr : ∀ w, Wo (Proc.devRef .tc (Pipeline.arrRef cfg.spec w)) = d.arrAt w cfg.N)
    (hne : ∀ b, (∀ w, Pipeline.arrRef cfg.spec w ≠ b) → Wo (Proc.devRef .tc b) = Wi (Proc.devRef .tc b))
    (hA : ∀ w, d.A w = Wi (Proc.devRef .tc (Pipeline.arrRef cfg.spec w)))
    (b : Ref sig .tc) (hb : ∀ w, Pipeline.arrRef cfg.spec w = b → (cfg.win w).isOut = false) :
    Wo (Proc.devRef .tc b) = Wi (Proc.devRef .tc b) := by
  by_cases h : ∃ w, Pipeline.arrRef cfg.spec w = b
  · obtain ⟨w, rfl⟩ := h
    exact (harr w).trans ((d.arrAt_in w (hb w rfl) _).trans (hA w))
  · exact hne b fun w e => h ⟨w, e⟩

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- Every step leaves such a buffer alone, so a memory that agrees with W6 on it has it as launched.
theorem kept_at {s : MemSt nD τ sig (Elt F)}
    (h : ∀ c : Dev nD, ∀ b ∈ Pipeline.ucRefs τ sig, s.mem ((c : Thread nD τ).1, b) = W6 m ρ c b) (c : Dev nD) (r : Ref sig .tc)
    (hr : ¬ (Proc.devRef .tc r : DevRef τ sig).isScoped ∧ r ∉ hostOps0_W ∧ r ∉ hostOps2_W ∧ r ∉ hostOps3_W
      ∧ (∀ w, Pipeline.arrRef spec0 w = r → (cfg0.win w).isOut = false)
      ∧ (∀ w, Pipeline.arrRef spec1 w = r → (cfg1.win w).isOut = false)
      ∧ ∀ w, Pipeline.arrRef spec2 w = r → (cfg2.win w).isOut = false) :
    s.mem ((c.tc : Thread nD τ).loc r) = m ((c.tc : Thread nD τ).loc r) :=
  let ⟨hu, h0, h2, h3, k0, k1, k2⟩ := hr
  (h c _ (mem_uc r hu)).trans <|
  (StableHlo.after_of_writes_sub hostOps3 _ hostOps3_writes h3).trans <|
  (keep_of (Norm.dat (V4 m ρ) c) (W4 m ρ c) (W5 m ρ c) (W5_arr m ρ c) (W5_of_ne m ρ c) (Norm.A_eq (V4 m ρ) c) r k2).trans <|
  (StableHlo.after_of_writes_sub hostOps2 _ hostOps2_writes h2).trans <|
  (keep_of (Proj.dat (V2 m ρ) c) (W2 m ρ c) (W3 m ρ c) (W3_arr m ρ c) (W3_of_ne m ρ c) (Proj.A_eq (V2 m ρ) c) r k1).trans <|
  (keep_of (Gram.dat (V1 m ρ) c) (W1 m ρ c) (W2 m ρ c) (W2_arr m ρ c) (W2_of_ne m ρ c) (Gram.A_eq (V1 m ρ) c) r k0).trans <|
  (StableHlo.after_of_writes_sub hostOps0 (W0 m ρ c) hostOps0_writes h0).trans rfl

-- With nothing owed the dues carry no tally, and a bound by everything holds of any recorded pair.
theorem owesAt_of_nothing {cfg : Cfg sig Λ₀} {c : Dev nD} (d : Dat τ (Elt F) Unit ℕ (UR sig nD τ) ℕ cfg c) (t : Fin (cfg.N + 1))
    (ho : d.owed t = 0) (hr : d.recorded t = Set.univ) :
    (iprop(∃ W, owes (c : Thread nD τ) (0 : CellTallies nD τ sig Unit) W) : sProp 𝕄) ⊢ d.owesAt () t := by
  unfold Pipeline.Dat.owesAt Pipeline.owesWithin
  rw [ho]
  iintro ⟨%W, HO⟩; iexists W; isplitr
  · ipureintro; exact fun x _ => Or.inl (by rw [hr]; exact Set.mem_univ x)
  iexact HO
theorem nothing_of_owesAt {cfg : Cfg sig Λ₀} {c : Dev nD} (d : Dat τ (Elt F) Unit ℕ (UR sig nD τ) ℕ cfg c) (t : Fin (cfg.N + 1))
    (ho : d.owed t = 0) :
    d.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

set_option backward.isDefEq.respectTransparency.types false in
-- One construction for the three regions: a region's facts enter as hypotheses, so each region is an instance.
def reg (p : Fin 3) (lf : Pipeline.LaunchFacts (nD := nD) (τ := τ) cfgs p) (Wi Wo : Dev nD → Valuation τ sig (Elt F))
    (hb : ∀ c, BodyObligation (pdats m ρ p c) (defs₀ (F := F)) 𝒱₀ () Set.univ)
    (ho : ∀ c t, (pdats m ρ p c).owed t = 0) (hq : ∀ c w, (pdats m ρ p c).q w = fullShare)
    (hr : ∀ c, (pdats m ρ p c).recorded 0 = Set.univ)
    (hA : ∀ c w, (pdats m ρ p c).A w = Wi c (Proc.devRef .tc (Pipeline.arrRef (cfgs p).spec w)))
    (hi : ∀ c, (Pipeline.ΦA (cfgs p).spec c : sProp 𝕄) ⊢ (pdats m ρ p c).Φ 0)
    (he : ∀ c, (pdats m ρ p c).Φ (Fin.last (cfgs p).N) ⊢ (Pipeline.ΦA (cfgs p).spec c : sProp 𝕄))
    (harr : ∀ c w, Wo c (Proc.devRef .tc (Pipeline.arrRef (cfgs p).spec w)) = (pdats m ρ p c).arrAt w (cfgs p).N)
    (hne : ∀ c b, (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m ρ p c) 0 (ho c 0) (hr c)); iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine BIBase.Entails.trans (he c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m ρ p c) (Fin.last _) (ho c (Fin.last _))); iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (W2 m ρ) (Gram.body_obligation (V1 m ρ)) (Gram.owed_eq (V1 m ρ)) (Gram.q_eq (V1 m ρ))
      (fun _ => rfl) (Gram.A_eq (V1 m ρ)) (Gram.hin (V1 m ρ)) (Gram.hout (V1 m ρ)) (W2_arr m ρ) (W2_of_ne m ρ)),
    .region (reg m ρ 1 launch1 (W2 m ρ) (W3 m ρ) (Proj.body_obligation (V2 m ρ)) (Proj.owed_eq (V2 m ρ)) (Proj.q_eq (V2 m ρ))
      (fun _ => rfl) (Proj.A_eq (V2 m ρ)) (Proj.hin (V2 m ρ)) (Proj.hout (V2 m ρ)) (W3_arr m ρ) (W3_of_ne m ρ)),
    .host (hseg hostOps2 hostOps2_sub hostOps2_fresh (W3 m ρ)),
    .region (reg m ρ 2 launch2 (W4 m ρ) (W5 m ρ) (Norm.body_obligation (V4 m ρ)) (Norm.owed_eq (V4 m ρ)) (Norm.q_eq (V4 m ρ))
      (fun _ => rfl) (Norm.A_eq (V4 m ρ)) (Norm.hin (V4 m ρ)) (Norm.hout (V4 m ρ)) (W5_arr m ρ) (W5_of_ne m ρ)),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
-- The six segments chain from the contents W0 to W6, each entered from what the one before leaves.
theorem run_all : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

-- What the frame claim says of a final memory: each argument array as launched.
def Kept (s : MemSt nD τ sig (Elt F)) : Prop := ∀ c : Dev nD,
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)

-- Each argument array is unscoped, written by no operation outside the regions, and no output window's array.
theorem kept (s : MemSt nD τ sig (Elt F))
    (h : ∀ c : Dev nD, ∀ b ∈ Pipeline.ucRefs τ sig, s.mem ((c : Thread nD τ).1, b) = W6 m ρ c b) : Kept m s := fun c =>
  ⟨kept_at m ρ h c _ (by decide), kept_at m ρ h c _ (by decide), kept_at m ρ h c _ (by decide), kept_at m ρ h c _ (by decide),
    kept_at m ρ h c _ (by decide), kept_at m ρ h c _ (by decide), kept_at m ρ h c _ (by decide), kept_at m ρ h c _ (by decide),
    kept_at m ρ h c _ (by decide), kept_at m ρ h c _ (by decide), kept_at m ρ h c _ (by decide)⟩

theorem frame : θ_run defs (onTc (τ := τ) (main (F := F))) ⟨m, fun _ => 0, ρ⟩ (fun r => Kept m r.2) :=
  (θ_run defs _ _).mono (fun r h => kept m ρ r.2 h) (run_all m ρ)

end Cert.Kernel.Whole

end
-- ==== Proof.KI.GramDefs.lean ====
import proofs.«161341_j29137058136126_1_alg».proof.Proof.Gen.KernelIdeal.Launch
import proofs.«161341_j29137058136126_1_alg».proof.Proof.Gen.KernelIdeal.Skeleton
import proofs.«161341_j29137058136126_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)

abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem idleAt_5_First : ∀ t : Fin cfg0.N, cond0 (grid0.coords t) → ¬cond1 (grid0.coords t) → cfg0.idle 5 (grid0.coords t) = true := by decide +kernel
theorem noFlush_5_First : ∀ t : Fin cfg0.N, cond0 (grid0.coords t) → ¬cond1 (grid0.coords t) → (cfg0.win 5).flush t = false := by decide +kernel
theorem idleAt_5_Mid : ∀ t : Fin cfg0.N, ¬cond0 (grid0.coords t) → ¬cond1 (grid0.coords t) → cfg0.idle 5 (grid0.coords t) = true := by decide +kernel
theorem noFlush_5_Mid : ∀ t : Fin cfg0.N, ¬cond0 (grid0.coords t) → ¬cond1 (grid0.coords t) → (cfg0.win 5).flush t = false := by decide +kernel
theorem liveAt_5_Last : ∀ t : Fin cfg0.N, ¬cond0 (grid0.coords t) → cond1 (grid0.coords t) → cfg0.idle 5 (grid0.coords t) = false := by decide +kernel

abbrev ms_0 (t : Fin cfg0.N) : Memref sig .tc .vmem S1x512x1024 .f32 := win0_0.stage (cfg0.slots t 0)
abbrev ms_1 (t : Fin cfg0.N) : Memref sig .tc .vmem S1024x512 .f32 := win0_1.stage (cfg0.slots t 1)
abbrev ms_2 (t : Fin cfg0.N) : Memref sig .tc .vmem S512 .f32 := win0_2.stage (cfg0.slots t 2)
abbrev ms_3 (t : Fin cfg0.N) : Memref sig .tc .vmem S1024x512 .f32 := win0_3.stage (cfg0.slots t 3)
abbrev ms_4 (t : Fin cfg0.N) : Memref sig .tc .vmem S512 .f32 := win0_4.stage (cfg0.slots t 4)
abbrev ms_5 (t : Fin cfg0.N) : Memref sig .tc .vmem S1x512x512 .f32 := win0_5.stage (cfg0.slots t 5)
abbrev scM : Memref sig .tc .vmem S512x512 .f32 := Memref.whole cc0_scratch0

abbrev restBut (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop(iprop(iprop((∃ d, owns (c : Thread nD τ) scM fullShare d)) ∗ restBut (F := F) c) ∗ (∃ r, prngReg c r)) := by
  unfold Pipeline.ΦA; rw [scopedRest0_split]; simp only [scM, owns_whole]; try rfl

-- The accumulator after point `n`: the tile's update of the reset value at a batch's first tile, else of what the point before left.
def accAt (c : Dev nD) (n : ℕ) (hn : n < cfg0.N) : Vec F S512x512 .f32 :=
  k0_pay2 (blk V c 0 ⟨n, hn⟩) (blk V c 1 ⟨n, hn⟩) (blk V c 3 ⟨n, hn⟩) (blk V c 2 ⟨n, hn⟩) (blk V c 4 ⟨n, hn⟩)
    (if h : n % 8 = 0 then k0_pay1 (F := F) else accAt c (n - 1) (by omega))
termination_by n
decreasing_by omega

theorem accAt_first (c : Dev nD) (t : Fin cfg0.N) (h : t.val % 8 = 0) :
    accAt V c t.val t.isLt = k0_pay2 (blk V c 0 t) (blk V c 1 t) (blk V c 3 t) (blk V c 2 t) (blk V c 4 t) (k0_pay1 (F := F)) := by
  rw [accAt, dif_pos h]

theorem accAt_next (c : Dev nD) (t : Fin cfg0.N) (h : ¬t.val % 8 = 0) :
    accAt V c t.val t.isLt = k0_pay2 (blk V c 0 t) (blk V c 1 t) (blk V c 3 t) (blk V c 2 t) (blk V c 4 t) (accAt V c (t.val - 1) (Nat.lt_of_le_of_lt (Nat.sub_le _ _) t.isLt)) := by
  rw [accAt, dif_neg h]

-- The invariant before point `n`: the entry invariant at the start, afterwards the accumulator owned at what the point before left.
def PhiS (c : Dev nD) : (n : ℕ) → n ≤ cfg0.N → sProp 𝕄
  | 0, _ => Pipeline.ΦA spec0 c
  | n + 1, hn => iprop(iprop(owns (c : Thread nD τ) scM fullShare (accAt V c n hn) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k0_pay3 (accAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := rfl
theorem q_eq (c : Dev nD) (w : Fin cfg0.W) : (dat V c).q w = fullShare := rfl
theorem owed_eq (c : Dev nD) (t : Fin (cfg0.N + 1)) : (dat V c).owed t = 0 := rfl

theorem PhiS_castSucc (c : Dev nD) (t : Fin cfg0.N) :
    (dat V c).Φ t.castSucc = PhiS V c t.val (Nat.le_of_lt t.isLt) := rfl

theorem after_0 (c : Dev nD) (t : Fin cfg0.N) : (dat V c).after 0 t = blk V c 0 t := rfl
theorem after_1 (c : Dev nD) (t : Fin cfg0.N) : (dat V c).after 1 t = blk V c 1 t := rfl
theorem after_2 (c : Dev nD) (t : Fin cfg0.N) : (dat V c).after 2 t = blk V c 2 t := rfl
theorem after_3 (c : Dev nD) (t : Fin cfg0.N) : (dat V c).after 3 t = blk V c 3 t := rfl
theorem after_4 (c : Dev nD) (t : Fin cfg0.N) : (dat V c).after 4 t = blk V c 4 t := rfl
theorem after_5 (c : Dev nD) (t : Fin cfg0.N) : (dat V c).after 5 t = k0_pay3 (accAt V c t.val t.isLt) := rfl

theorem before_0 (c : Dev nD) (t : Fin cfg0.N) (d) : (dat V c).before 0 t d = blk V c 0 t :=
  (dat V c).before_in_eq_fetched 0 rfl (fun _ => rfl) (fun _ _ _ => rfl) (fun _ => rfl) t d
theorem before_1 (c : Dev nD) (t : Fin cfg0.N) (d) : (dat V c).before 1 t d = blk V c 1 t :=
  (dat V c).before_in_eq_fetched 1 rfl (fun _ => rfl) (fun _ _ _ => rfl) (fun _ => rfl) t d
theorem before_2 (c : Dev nD) (t : Fin cfg0.N) (d) : (dat V c).before 2 t d = blk V c 2 t :=
  (dat V c).before_in_eq_fetched 2 rfl (fun _ => rfl) (fun _ _ _ => rfl) (fun _ => rfl) t d
theorem before_3 (c : Dev nD) (t : Fin cfg0.N) (d) : (dat V c).before 3 t d = blk V c 3 t :=
  (dat V c).before_in_eq_fetched 3 rfl (fun _ => rfl) (fun _ _ _ => rfl) (fun _ => rfl) t d
theorem before_4 (c : Dev nD) (t : Fin cfg0.N) (d) : (dat V c).before 4 t d = blk V c 4 t :=
  (dat V c).before_in_eq_fetched 4 rfl (fun _ => rfl) (fun _ _ _ => rfl) (fun _ => rfl) t d

theorem hin (c : Dev nD) : (Pipeline.ΦA spec0 c : sProp 𝕄) ⊢ (dat V c).Φ 0 := .refl

-- After the last point the accumulator's named contents are forgotten.
theorem hout (c : Dev nD) : (dat V c).Φ (Fin.last cfg0.N) ⊢ (Pipeline.ΦA spec0 c : sProp 𝕄) := by
  rw [PhiA_eq]; exact sep_mono_l (sep_mono_l (sExists_intro ⟨_, rfl⟩))

end Cert.KernelIdeal.Gram

end
-- ==== Proof.KI.GramRunFirst.lean ====
import proofs.«161341_j29137058136126_1_alg».proof.Proof.KI.GramDefs
import proofs.«161341_j29137058136126_1_alg».proof.Proof.WholeStore

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1024x512 .f32) (harg5 : arg5.IsWhole)
  (arg6 : Memref sig .tc .vmem S512 .f32) (harg6 : arg6.IsWhole) (arg7 : Memref sig .tc .vmem S1x512x512 .f32) (harg7 : arg7.IsWhole)
  (arg8 : Memref sig .tc .vmem S512x512 .f32) (harg8 : arg8.IsWhole) (hc0 : cond0 i) (hc1 : ¬cond1 i)
  (x0 : Vec F S1x512x1024 .f32) (x1 : Vec F S1024x512 .f32) (x2 : Vec F S512 .f32) (x3 : Vec F S1024x512 .f32) (x4 : Vec F S512 .f32)

include hc0 hc1 in
set_option maxHeartbeats 1000000 in
/-- The body at a batch's first tile: the accumulator, whatever it held, ends at the tile's update of the reset value; the output block is not touched. -/
theorem run_First (xi5 : Vec F S1x512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k0_pay2 x0 x1 x3 x2 x4 (k0_pay1 (F := F)))) -∗ K ⟨⟩))
      ⊢ wp frame (wpE (defs₀ (F := F)) Variants.none c none) E (cc0__m_kernel i arg2 harg2 arg3 harg3 arg4 harg4 arg5 harg5 arg6 harg6 arg7 harg7 arg8 harg8) K := by
  simp only [cc0__m_kernel_eq_skeleton]; unfold cc0__m_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr; swap; iexact HS; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg8.read_unread,
    View.ld_unit_zero (S := S1x512x1024) hz3, View.ld_unit_zero (S := S1024x512) hz2, View.ld_unit_zero (S := S512) hz1,
    View.ld_unit_zero (S := S512x512) hz2, View.readCov_unit_zero (S := S512x512) _ hz2]

end Cert.KernelIdeal.Gram

end
-- ==== Proof.KI.GramRunMid.lean ====
import proofs.«161341_j29137058136126_1_alg».proof.Proof.KI.GramRunFirst

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1024x512 .f32) (harg5 : arg5.IsWhole)
  (arg6 : Memref sig .tc .vmem S512 .f32) (harg6 : arg6.IsWhole) (arg7 : Memref sig .tc .vmem S1x512x512 .f32) (harg7 : arg7.IsWhole)
  (arg8 : Memref sig .tc .vmem S512x512 .f32) (harg8 : arg8.IsWhole) (hc0 : ¬cond0 i) (hc1 : ¬cond1 i)
  (x0 : Vec F S1x512x1024 .f32) (x1 : Vec F S1024x512 .f32) (x2 : Vec F S512 .f32) (x3 : Vec F S1024x512 .f32) (x4 : Vec F S512 .f32) (xs : Vec F S512x512 .f32)

include hc0 hc1 in
set_option maxHeartbeats 1000000 in
/-- The body at a tile inside a batch: the accumulator ends at the tile's update of what it held. -/
theorem run_Mid (xi5 : Vec F S1x512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k0_pay2 x0 x1 x3 x2 x4 xs)) -∗ K ⟨⟩))
      ⊢ wp frame (wpE (defs₀ (F := F)) Variants.none c none) E (cc0__m_kernel i arg2 harg2 arg3 harg3 arg4 harg4 arg5 harg5 arg6 harg6 arg7 harg7 arg8 harg8) K := by
  simp only [cc0__m_kernel_eq_skeleton]; unfold cc0__m_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr; swap; iexact HS; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg8.read_unread,
    View.ld_unit_zero (S := S1x512x1024) hz3, View.ld_unit_zero (S := S1024x512) hz2, View.ld_unit_zero (S := S512) hz1,
    View.ld_unit_zero (S := S512x512) hz2, View.readCov_unit_zero (S := S512x512) _ hz2]

end Cert.KernelIdeal.Gram

end
-- ==== Proof.KI.GramRunLast.lean ====
import proofs.«161341_j29137058136126_1_alg».proof.Proof.KI.GramRunMid

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1024x512 .f32) (harg5 : arg5.IsWhole)
  (arg6 : Memref sig .tc .vmem S512 .f32) (harg6 : arg6.IsWhole) (arg7 : Memref sig .tc .vmem S1x512x512 .f32) (harg7 : arg7.IsWhole)
  (arg8 : Memref sig .tc .vmem S512x512 .f32) (harg8 : arg8.IsWhole) (hc0 : ¬cond0 i) (hc1 : cond1 i)
  (x0 : Vec F S1x512x1024 .f32) (x1 : Vec F S1024x512 .f32) (x2 : Vec F S512 .f32) (x3 : Vec F S1024x512 .f32) (x4 : Vec F S512 .f32) (xs : Vec F S512x512 .f32)

include hc0 hc1 in
set_option maxHeartbeats 1000000 in
/-- The body at a batch's last tile: the accumulator ends at the tile's update of what it held, and the output block at that accumulator scaled. -/
theorem run_Last (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 (k0_pay2 x0 x1 x3 x2 x4 xs)) ∗ owns (c : Thread nD τ) arg8 fullShare (k0_pay2 x0 x1 x3 x2 x4 xs)) -∗ K ⟨⟩))
      ⊢ wp frame (wpE (defs₀ (F := F)) Variants.none c none) E (cc0__m_kernel i arg2 harg2 arg3 harg3 arg4 harg4 arg5 harg5 arg6 harg6 arg7 harg7 arg8 harg8) K := by
  simp only [cc0__m_kernel_eq_skeleton]; unfold cc0__m_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  iexists _; isplitr; swap; iexact H5; ipureintro; rotate_left
  iexists _; isplitr; swap; iexact HS; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg8.read_unread,
    View.ld_unit_zero (S := S1x512x1024) hz3, View.ld_unit_zero (S := S1024x512) hz2, View.ld_unit_zero (S := S512) hz1,
    View.ld_unit_zero (S := S512x512) hz2, View.readCov_unit_zero (S := S512x512) _ hz2]

end Cert.KernelIdeal.Gram

end
-- ==== Proof.KI.GramFrame.lean ====
import proofs.«161341_j29137058136126_1_alg».proof.Proof.KI.GramRunLast

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- What it hands back. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

/-- Before any point the invariant yields the accumulator at SOME contents: all a batch's first tile needs. -/
theorem Phi_any (c : Dev nD) (t : Fin cfg0.N) :
    (dat V c).Φ t.castSucc ⊢ (iprop(iprop((∃ d, owns (c : Thread nD τ) scM fullShare d) ∗ restBut (F := F) c) ∗ (∃ r, prngReg c r)) : sProp 𝕄) := by
  by_cases hz : t.val = 0
  · rw [PhiS_castSucc V c t, PhiS_zero V c _ _ hz, PhiA_eq]
  · rw [PhiS_castSucc V c t, PhiS_pos V c _ _ hz]
    iintro ⟨⟨HS, HR⟩, Hg⟩
    iframe HR Hg
    iexists _; iexact HS

/-- The body at any point, by the point's place in its batch: the case's run, then the accumulator (and at a last tile the output block) read back. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  by_cases h0 : t.val % 8 = 0
  · have hc0 : cond0 (grid0.coords t) := (hcond0 t).mpr h0
    have hc1 : ¬cond1 (grid0.coords t) := fun h => by have := (hcond1 t).mp h; omega
    rw [Dat.leavesExact_idle (dat V c) 5 t (idleAt_5_First t hc0 hc1) (noFlush_5_First t hc0 hc1), accAt_first V c t h0]
    iintro ⟨HΦ, Ho, ⟨%d0, H0⟩, ⟨%d1, H1⟩, ⟨%d2, H2⟩, ⟨%d3, H3⟩, ⟨%d4, H4⟩, ⟨%d5, H5⟩⟩
    ihave HΦ' := Phi_any V c t $$ HΦ
    icases HΦ' with ⟨⟨HS, HR⟩, Hg⟩
    iapply (run_First c (grid0.coords t) _ _ _ _ _ _ _ _ _ _ _ _ _ _ hc0 hc1 (blk V c 0 t) (blk V c 1 t) (blk V c 2 t) (blk V c 3 t) (blk V c 4 t) _ Set.univ _)
    iframe H0 H1 H2 H3 H4 H5 HS
    iintro ⟨H0, H1, H2, H3, H4, H5, HS⟩
    iframe HS HR Hg Ho H0 H1 H2 H3 H4
    iexists _; iexact H5
  · have hz : t.val ≠ 0 := fun e => h0 (by rw [e])
    have hc0 : ¬cond0 (grid0.coords t) := fun h => h0 ((hcond0 t).mp h)
    by_cases h1 : t.val % 8 = 7
    · have hc1 : cond1 (grid0.coords t) := (hcond1 t).mpr h1
      rw [show (dat V c).leavesExact 5 t = owns (c : Thread nD τ) (ms_5 t) fullShare ((dat V c).after 5 t) from by
        unfold Dat.leavesExact; rw [liveAt_5_Last t hc0 hc1], after_5]
      rw [accAt_next V c t h0, PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_Last c (grid0.coords t) _ _ _ _ _ _ _ _ _ _ _ _ _ _ hc0 hc1 (blk V c 0 t) (blk V c 1 t) (blk V c 2 t) (blk V c 3 t) (blk V c 4 t) _ Set.univ _)
      iframe H0 H1 H2 H3 H4 HS
      isplitl [H5]; · iexists _; iexact H5
      iintro ⟨H0, H1, H2, H3, H4, H5, HS⟩
      iframe
    · have hc1 : ¬cond1 (grid0.coords t) := fun h => h1 ((hcond1 t).mp h)
      rw [Dat.leavesExact_idle (dat V c) 5 t (idleAt_5_Mid t hc0 hc1) (noFlush_5_Mid t hc0 hc1), accAt_next V c t h0, PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_Mid c (grid0.coords t) _ _ _ _ _ _ _ _ _ _ _ _ _ _ hc0 hc1 (blk V c 0 t) (blk V c 1 t) (blk V c 2 t) (blk V c 3 t) (blk V c 4 t) _ _ Set.univ _)
      iframe H0 H1 H2 H3 H4 H5 HS
      iintro ⟨H0, H1, H2, H3, H4, H5, HS⟩
      iframe HS HR Hg Ho H0 H1 H2 H3 H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

theorem after_5_last (c : Dev nD) (t : Fin cfg0.N) (h : t.val % 8 = 7) :
    (dat V c).after 5 t = k0_pay3 (accAt V c t.val t.isLt) := after_5 V c t

theorem recorded_eq (c : Dev nD) (t : Fin (cfg0.N + 1)) : (dat V c).recorded t = Set.univ := rfl

end Cert.KernelIdeal.Gram

end
-- ==== Proof.KI.ProjDefs.lean ====
import proofs.«161341_j29137058136126_1_alg».proof.Proof.Gen.KernelIdeal.Launch
import proofs.«161341_j29137058136126_1_alg».proof.Proof.Gen.KernelIdeal.Skeleton
import proofs.«161341_j29137058136126_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev x0At (c : Dev nD) (t : Fin cfg1.N) : Vec F S1x512x1024 .f32 := blk V c 0 t
abbrev x1At (c : Dev nD) (t : Fin cfg1.N) : Vec F S1024x512 .f32 := blk V c 1 t
abbrev x2At (c : Dev nD) (t : Fin cfg1.N) : Vec F S512 .f32 := blk V c 2 t
abbrev x3At (c : Dev nD) (t : Fin cfg1.N) : Vec F S1x512x512 .f32 := blk V c 3 t
abbrev x4At (c : Dev nD) (t : Fin cfg1.N) : Vec F S512x1024 .f32 := blk V c 4 t
abbrev x5At (c : Dev nD) (t : Fin cfg1.N) : Vec F S1024 .f32 := blk V c 5 t

abbrev cond_0 (i : grid1.Coords) : Prop := (Scalar.cmpi .ne (Scalar.extui (Scalar.cmpi .eq (BitVec.ofNat 32 (i 1).val) 0#32)) 0#32) = 1#1
theorem hcond_0 : ∀ t : Fin cfg1.N, cond_0 (grid1.coords t) ↔ t.val % 8 = 0 :=
  (by decide +kernel : ∀ t : Fin grid1.N, cond_0 (grid1.coords t) ↔ t.val % 8 = 0)

abbrev cond_1 (i : grid1.Coords) : Prop := k1_cond2 i = 1#1
theorem hcond_1 : ∀ t : Fin cfg1.N, cond_1 (grid1.coords t) ↔ t.val % 8 = 7 :=
  (by decide +kernel : ∀ t : Fin grid1.N, cond_1 (grid1.coords t) ↔ t.val % 8 = 7)

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
theorem liveAt_5 : ∀ t : Fin cfg1.N, cfg1.idle 5 (grid1.coords t) = false := by decide +kernel
theorem liveAt_6 : ∀ t : Fin cfg1.N, cfg1.idle 6 (grid1.coords t) = false := by decide +kernel

theorem idleAt_7 : ∀ t : Fin cfg1.N, ¬cond_1 (grid1.coords t) → cfg1.idle 7 (grid1.coords t) = true := by decide +kernel
theorem noFlush_7 : ∀ t : Fin cfg1.N, ¬cond_1 (grid1.coords t) → (cfg1.win 7).flush t = false := by decide +kernel
theorem liveAt_7 : ∀ t : Fin cfg1.N, cond_1 (grid1.coords t) → cfg1.idle 7 (grid1.coords t) = false := by decide +kernel
theorem idleAt_8 : ∀ t : Fin cfg1.N, ¬cond_1 (grid1.coords t) → cfg1.idle 8 (grid1.coords t) = true := by decide +kernel
theorem noFlush_8 : ∀ t : Fin cfg1.N, ¬cond_1 (grid1.coords t) → (cfg1.win 8).flush t = false := by decide +kernel
theorem liveAt_8 : ∀ t : Fin cfg1.N, cond_1 (grid1.coords t) → cfg1.idle 8 (grid1.coords t) = false := by decide +kernel

abbrev ms_0 (t : Fin cfg1.N) := win1_0.stage (cfg1.slots t 0)
abbrev ms_1 (t : Fin cfg1.N) := win1_1.stage (cfg1.slots t 1)
abbrev ms_2 (t : Fin cfg1.N) := win1_2.stage (cfg1.slots t 2)
abbrev ms_3 (t : Fin cfg1.N) := win1_3.stage (cfg1.slots t 3)
abbrev ms_4 (t : Fin cfg1.N) := win1_4.stage (cfg1.slots t 4)
abbrev ms_5 (t : Fin cfg1.N) := win1_5.stage (cfg1.slots t 5)
abbrev ms_6 (t : Fin cfg1.N) := win1_6.stage (cfg1.slots t 6)
abbrev ms_7 (t : Fin cfg1.N) := win1_7.stage (cfg1.slots t 7)
abbrev ms_8 (t : Fin cfg1.N) := win1_8.stage (cfg1.slots t 8)

abbrev scM0 : Memref sig .tc .vmem S1x1024 .f32 := Memref.whole cc1_scratch0
abbrev scM1 : Memref sig .tc .vmem S1x1024 .f32 := Memref.whole cc1_scratch1

abbrev restO (c : Dev nD) : sProp 𝕄 :=
  Pipeline.scopedRestBut (Ix := Unit) (Name := ℕ) (U := UR sig nD τ) (Lvl := ℕ) (Val := Elt F) spec1 c [cc1_scratch0, cc1_scratch1]

theorem PhiA_eq (c : Dev nD) :
    (Pipeline.ΦA spec1 c : sProp 𝕄)
      = iprop(iprop(iprop((∃ d, owns (c : Thread nD τ) scM0 fullShare d) ∗ (∃ d, owns (c : Thread nD τ) scM1 fullShare d)) ∗ restO (F := F) c) ∗ (∃ r, prngReg c r)) := by
  unfold Pipeline.ΦA
  rw [Pipeline.scopedRest_split_of_list spec1 c [cc1_scratch0, cc1_scratch1] (by decide) (by decide)]
  simp only [scM0, scM1, owns_whole, bigSepL_cons_cons, bigSepL_singleton]; try rfl

def wyAt (c : Dev nD) (t : Fin cfg1.N) : FVec F S512x1024 .f32 :=
  k1_pay7 (x0At V c t) (x1At V c t) (x2At V c t) (x3At V c t) (x4At V c t) (x5At V c t)

def acc0At (c : Dev nD) (n : ℕ) (hn : n < cfg1.N) : Vec F S1x1024 .f32 :=
  k1_pay1 (wyAt V c ⟨n, hn⟩) (if h : n % 8 = 0 then k1_pay5 (F := F) else acc0At c (n - 1) (by omega))
termination_by n
decreasing_by omega

def acc1At (c : Dev nD) (n : ℕ) (hn : n < cfg1.N) : Vec F S1x1024 .f32 :=
  k1_pay2 (wyAt V c ⟨n, hn⟩) (if h : n % 8 = 0 then k1_pay6 (F := F) else acc1At c (n - 1) (by omega))
termination_by n
decreasing_by omega

theorem acc0At_first (c : Dev nD) (t : Fin cfg1.N) (h0 : t.val % 8 = 0) :
    acc0At V c t.val t.isLt = k1_pay1 (wyAt V c t) (k1_pay5 (F := F)) := by
  rw [acc0At, dif_pos h0]

theorem acc0At_next (c : Dev nD) (t : Fin cfg1.N) (h0 : ¬t.val % 8 = 0) :
    acc0At V c t.val t.isLt = k1_pay1 (wyAt V c t) (acc0At V c (t.val - 1) (Nat.lt_of_le_of_lt (Nat.sub_le _ _) t.isLt)) := by
  rw [acc0At, dif_neg h0]

theorem acc1At_first (c : Dev nD) (t : Fin cfg1.N) (h0 : t.val % 8 = 0) :
    acc1At V c t.val t.isLt = k1_pay2 (wyAt V c t) (k1_pay6 (F := F)) := by
  rw [acc1At, dif_pos h0]

theorem acc1At_next (c : Dev nD) (t : Fin cfg1.N) (h0 : ¬t.val % 8 = 0) :
    acc1At V c t.val t.isLt = k1_pay2 (wyAt V c t) (acc1At V c (t.val - 1) (Nat.lt_of_le_of_lt (Nat.sub_le _ _) t.isLt)) := by
  rw [acc1At, dif_neg h0]

def PhiS (c : Dev nD) : (n : ℕ) → n ≤ cfg1.N → sProp 𝕄
  | 0, _ => Pipeline.ΦA spec1 c
  | n + 1, hn => iprop(iprop(iprop(owns (c : Thread nD τ) scM0 fullShare (acc0At V c n hn) ∗ owns (c : Thread nD τ) scM1 fullShare (acc1At V c n hn)) ∗ restO (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare (acc0At V c n hn) ∗ owns (c : Thread nD τ) scM1 fullShare (acc1At V c n hn)) ∗ restO (F := F) c) ∗ (∃ r, prngReg c r)) := rfl

theorem PhiS_pos (c : Dev nD) (n : ℕ) (h : n ≤ cfg1.N) (hz : n ≠ 0) :
    PhiS V c n h = iprop(iprop(iprop(owns (c : Thread nD τ) scM0 fullShare (acc0At V c (n - 1) (by omega)) ∗ owns (c : Thread nD τ) scM1 fullShare (acc1At V c (n - 1) (by omega))) ∗ restO (F := F) c) ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => k1_pay8 (x0At V c t) (x1At V c t) (x2At V c t) (x3At V c t) (x4At V c t) (x5At V c t)
    | ⟨7, _⟩ => k1_pay3 (acc0At V c t.val t.isLt)
    | ⟨8, _⟩ => k1_pay4 (acc1At V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := rfl
theorem q_eq (c : Dev nD) (w : Fin cfg1.W) : (dat V c).q w = fullShare := rfl
theorem owed_eq (c : Dev nD) (t : Fin (cfg1.N + 1)) : (dat V c).owed t = 0 := rfl

theorem PhiS_castSucc (c : Dev nD) (t : Fin cfg1.N) :
    (dat V c).Φ t.castSucc = PhiS V c t.val (Nat.le_of_lt t.isLt) := rfl

theorem after_0 (c : Dev nD) (t : Fin cfg1.N) : (dat V c).after 0 t = blk V c 0 t := rfl
theorem after_1 (c : Dev nD) (t : Fin cfg1.N) : (dat V c).after 1 t = blk V c 1 t := rfl
theorem after_2 (c : Dev nD) (t : Fin cfg1.N) : (dat V c).after 2 t = blk V c 2 t := rfl
theorem after_3 (c : Dev nD) (t : Fin cfg1.N) : (dat V c).after 3 t = blk V c 3 t := rfl
theorem after_4 (c : Dev nD) (t : Fin cfg1.N) : (dat V c).after 4 t = blk V c 4 t := rfl
theorem after_5 (c : Dev nD) (t : Fin cfg1.N) : (dat V c).after 5 t = blk V c 5 t := rfl
theorem after_6 (c : Dev nD) (t : Fin cfg1.N) :
    (dat V c).after 6 t = k1_pay8 (x0At V c t) (x1At V c t) (x2At V c t) (x3At V c t) (x4At V c t) (x5At V c t) := rfl
theorem after_7 (c : Dev nD) (t : Fin cfg1.N) : (dat V c).after 7 t = k1_pay3 (acc0At V c t.val t.isLt) := rfl
theorem after_8 (c : Dev nD) (t : Fin cfg1.N) : (dat V c).after 8 t = k1_pay4 (acc1At V c t.val t.isLt) := rfl

theorem before_0 (c : Dev nD) (t : Fin cfg1.N) (d) : (dat V c).before 0 t d = blk V c 0 t :=
  (dat V c).before_in_eq_fetched 0 rfl (fun _ => rfl) (fun _ _ _ => rfl) (fun _ => rfl) t d
theorem before_1 (c : Dev nD) (t : Fin cfg1.N) (d) : (dat V c).before 1 t d = blk V c 1 t :=
  (dat V c).before_in_eq_fetched 1 rfl (fun _ => rfl) (fun _ _ _ => rfl) (fun _ => rfl) t d
theorem before_2 (c : Dev nD) (t : Fin cfg1.N) (d) : (dat V c).before 2 t d = blk V c 2 t :=
  (dat V c).before_in_eq_fetched 2 rfl (fun _ => rfl) (fun _ _ _ => rfl) (fun _ => rfl) t d
theorem before_3 (c : Dev nD) (t : Fin cfg1.N) (d) : (dat V c).before 3 t d = blk V c 3 t :=
  (dat V c).before_in_eq_fetched 3 rfl (fun _ => rfl) (fun _ _ _ => rfl) (fun _ => rfl) t d
theorem before_4 (c : Dev nD) (t : Fin cfg1.N) (d) : (dat V c).before 4 t d = blk V c 4 t :=
  (dat V c).before_in_eq_fetched 4 rfl (fun _ => rfl) (fun _ _ _ => rfl) (fun _ => rfl) t d
theorem before_5 (c : Dev nD) (t : Fin cfg1.N) (d) : (dat V c).before 5 t d = blk V c 5 t :=
  (dat V c).before_in_eq_fetched 5 rfl (fun _ => rfl) (fun _ _ _ => rfl) (fun _ => rfl) t d

end Cert.KernelIdeal.Proj

end
-- ==== Proof.KI.ProjRunFirst.lean ====
import proofs.«161341_j29137058136126_1_alg».proof.Proof.KI.ProjDefs
import proofs.«161341_j29137058136126_1_alg».proof.Proof.WholeStore

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

variable (c : Dev nD) (i : grid1.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1x512x512 .f32) (harg5 : arg5.IsWhole)
  (arg6 : Memref sig .tc .vmem S512x1024 .f32) (harg6 : arg6.IsWhole) (arg7 : Memref sig .tc .vmem S1024 .f32) (harg7 : arg7.IsWhole)
  (arg8 : Memref sig .tc .vmem S1x512x1024 .bf16) (harg8 : arg8.IsWhole) (arg9 : Memref sig .tc .vmem S1x1x1024 .f32) (harg9 : arg9.IsWhole)
  (arg10 : Memref sig .tc .vmem S1x1x1024 .f32) (harg10 : arg10.IsWhole) (arg11 : Memref sig .tc .vmem S1x1024 .f32) (harg11 : arg11.IsWhole)
  (arg12 : Memref sig .tc .vmem S1x1024 .f32) (harg12 : arg12.IsWhole) (hc0 : cond_0 i) (hc1 : ¬cond_1 i)
  (x0 : Vec F S1x512x1024 .f32) (x1 : Vec F S1024x512 .f32) (x2 : Vec F S512 .f32) (x3 : Vec F S1x512x512 .f32) (x4 : Vec F S512x1024 .f32) (x5 : Vec F S1024 .f32)

include hc0 hc1 in
set_option maxHeartbeats 1000000 in
/-- The body at a batch's first tile: the tile output ends at the projected tile, and both column accumulators, whatever they held, at the tile's sums over the reset values; the two column outputs are not touched. -/
theorem run_First (xi7 xi8 : Vec F S1x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k1_pay8 x0 x1 x2 x3 x4 x5) ∗ owns (c : Thread nD τ) arg9 fullShare xi7 ∗ owns (c : Thread nD τ) arg10 fullShare xi8
            ∗ owns (c : Thread nD τ) arg11 fullShare (k1_pay1 (k1_pay7 x0 x1 x2 x3 x4 x5) (k1_pay5 (F := F))) ∗ owns (c : Thread nD τ) arg12 fullShare (k1_pay2 (k1_pay7 x0 x1 x2 x3 x4 x5) (k1_pay6 (F := F)))) -∗ K ⟨⟩))
      ⊢ wp frame (wpE (defs₀ (F := F)) Variants.none c none) E (cc1__wy_kernel i arg2 harg2 arg3 harg3 arg4 harg4 arg5 harg5 arg6 harg6 arg7 harg7 arg8 harg8 arg9 harg9 arg10 harg10 arg11 harg11 arg12 harg12) K := by
  simp only [cc1__wy_kernel_eq_skeleton]; unfold cc1__wy_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7; obtain rfl := harg10.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  iexists _; isplitr; swap; iexact H6; ipureintro; rotate_left
  isplitl [H7]
  · iexists _; isplitr; · ipureintro; exact harg9.read_unread _
    iexact H7
  isplitl [H8]
  · iexists _; isplitr; · ipureintro; exact harg10.read_unread _
    iexact H8
  isplitl [HS0]
  iexists _; isplitr; swap; iexact HS0; ipureintro; rotate_left
  iexists _; isplitr; swap; iexact HS1; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg7.read_unread,
    View.ld_unit_zero (S := S1x512x1024) hz3, View.ld_unit_zero (S := S1024x512) hz2, View.ld_unit_zero (S := S512) hz1,
    View.ld_unit_zero (S := S1x512x512) hz3, View.ld_unit_zero (S := S512x1024) hz2, View.ld_unit_zero (S := S1024) hz1,
    View.readCov_unit_zero (S := S1x1024) _ hz2]

end Cert.KernelIdeal.Proj

end
-- ==== Proof.KI.ProjRunMid.lean ====
import proofs.«161341_j29137058136126_1_alg».proof.Proof.KI.ProjRunFirst

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

variable (c : Dev nD) (i : grid1.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1x512x512 .f32) (harg5 : arg5.IsWhole)
  (arg6 : Memref sig .tc .vmem S512x1024 .f32) (harg6 : arg6.IsWhole) (arg7 : Memref sig .tc .vmem S1024 .f32) (harg7 : arg7.IsWhole)
  (arg8 : Memref sig .tc .vmem S1x512x1024 .bf16) (harg8 : arg8.IsWhole) (arg9 : Memref sig .tc .vmem S1x1x1024 .f32) (harg9 : arg9.IsWhole)
  (arg10 : Memref sig .tc .vmem S1x1x1024 .f32) (harg10 : arg10.IsWhole) (arg11 : Memref sig .tc .vmem S1x1024 .f32) (harg11 : arg11.IsWhole)
  (arg12 : Memref sig .tc .vmem S1x1024 .f32) (harg12 : arg12.IsWhole) (hc0 : ¬cond_0 i) (hc1 : ¬cond_1 i)
  (x0 : Vec F S1x512x1024 .f32) (x1 : Vec F S1024x512 .f32) (x2 : Vec F S512 .f32) (x3 : Vec F S1x512x512 .f32) (x4 : Vec F S512x1024 .f32) (x5 : Vec F S1024 .f32) (xs0 xs1 : Vec F S1x1024 .f32)

include hc0 hc1 in
set_option maxHeartbeats 1000000 in
/-- The body at a tile inside a batch: the tile output ends at the projected tile, and each column accumulator at the tile's sums added to what it held. -/
theorem run_Mid (xi7 xi8 : Vec F S1x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k1_pay8 x0 x1 x2 x3 x4 x5) ∗ owns (c : Thread nD τ) arg9 fullShare xi7 ∗ owns (c : Thread nD τ) arg10 fullShare xi8
            ∗ owns (c : Thread nD τ) arg11 fullShare (k1_pay1 (k1_pay7 x0 x1 x2 x3 x4 x5) xs0) ∗ owns (c : Thread nD τ) arg12 fullShare (k1_pay2 (k1_pay7 x0 x1 x2 x3 x4 x5) xs1)) -∗ K ⟨⟩))
      ⊢ wp frame (wpE (defs₀ (F := F)) Variants.none c none) E (cc1__wy_kernel i arg2 harg2 arg3 harg3 arg4 harg4 arg5 harg5 arg6 harg6 arg7 harg7 arg8 harg8 arg9 harg9 arg10 harg10 arg11 harg11 arg12 harg12) K := by
  simp only [cc1__wy_kernel_eq_skeleton]; unfold cc1__wy_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7; obtain rfl := harg10.eq_unread hf8
  obtain rfl := harg11.eq_unread hfs0; obtain rfl := harg12.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  iexists _; isplitr; swap; iexact H6; ipureintro; rotate_left
  isplitl [H7]
  · iexists _; isplitr; · ipureintro; exact harg9.read_unread _
    iexact H7
  isplitl [H8]
  · iexists _; isplitr; · ipureintro; exact harg10.read_unread _
    iexact H8
  isplitl [HS0]
  iexists _; isplitr; swap; iexact HS0; ipureintro; rotate_left
  iexists _; isplitr; swap; iexact HS1; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg7.read_unread,
    harg11.read_unread, harg12.read_unread,
    View.ld_unit_zero (S := S1x512x1024) hz3, View.ld_unit_zero (S := S1024x512) hz2, View.ld_unit_zero (S := S512) hz1,
    View.ld_unit_zero (S := S1x512x512) hz3, View.ld_unit_zero (S := S512x1024) hz2, View.ld_unit_zero (S := S1024) hz1,
    View.ld_unit_zero (S := S1x1024) hz2, View.readCov_unit_zero (S := S1x1024) _ hz2]

end Cert.KernelIdeal.Proj

end
-- ==== Proof.KI.ProjRunLast.lean ====
import proofs.«161341_j29137058136126_1_alg».proof.Proof.KI.ProjRunMid

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

variable (c : Dev nD) (i : grid1.Coords) (arg2 : Memref sig .tc .vmem S1x512x1024 .f32) (harg2 : arg2.IsWhole) (arg3 : Memref sig .tc .vmem S1024x512 .f32) (harg3 : arg3.IsWhole)
  (arg4 : Memref sig .tc .vmem S512 .f32) (harg4 : arg4.IsWhole) (arg5 : Memref sig .tc .vmem S1x512x512 .f32) (harg5 : arg5.IsWhole)
  (arg6 : Memref sig .tc .vmem S512x1024 .f32) (harg6 : arg6.IsWhole) (arg7 : Memref sig .tc .vmem S1024 .f32) (harg7 : arg7.IsWhole)
  (arg8 : Memref sig .tc .vmem S1x512x1024 .bf16) (harg8 : arg8.IsWhole) (arg9 : Memref sig .tc .vmem S1x1x1024 .f32) (harg9 : arg9.IsWhole)
  (arg10 : Memref sig .tc .vmem S1x1x1024 .f32) (harg10 : arg10.IsWhole) (arg11 : Memref sig .tc .vmem S1x1024 .f32) (harg11 : arg11.IsWhole)
  (arg12 : Memref sig .tc .vmem S1x1024 .f32) (harg12 : arg12.IsWhole) (hc0 : ¬cond_0 i) (hc1 : cond_1 i)
  (x0 : Vec F S1x512x1024 .f32) (x1 : Vec F S1024x512 .f32) (x2 : Vec F S512 .f32) (x3 : Vec F S1x512x512 .f32) (x4 : Vec F S512x1024 .f32) (x5 : Vec F S1024 .f32) (xs0 xs1 : Vec F S1x1024 .f32)

include hc0 hc1 in
set_option maxHeartbeats 1000000 in
/-- The body at a batch's last tile: as inside a batch, and the two column outputs end at the accumulators just updated. -/
theorem run_Last (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k1_pay8 x0 x1 x2 x3 x4 x5) ∗ owns (c : Thread nD τ) arg9 fullShare (k1_pay3 (k1_pay1 (k1_pay7 x0 x1 x2 x3 x4 x5) xs0)) ∗ owns (c : Thread nD τ) arg10 fullShare (k1_pay4 (k1_pay2 (k1_pay7 x0 x1 x2 x3 x4 x5) xs1))
            ∗ owns (c : Thread nD τ) arg11 fullShare (k1_pay1 (k1_pay7 x0 x1 x2 x3 x4 x5) xs0) ∗ owns (c : Thread nD τ) arg12 fullShare (k1_pay2 (k1_pay7 x0 x1 x2 x3 x4 x5) xs1)) -∗ K ⟨⟩))
      ⊢ wp frame (wpE (defs₀ (F := F)) Variants.none c none) E (cc1__wy_kernel i arg2 harg2 arg3 harg3 arg4 harg4 arg5 harg5 arg6 harg6 arg7 harg7 arg8 harg8 arg9 harg9 arg10 harg10 arg11 harg11 arg12 harg12) K := by
  simp only [cc1__wy_kernel_eq_skeleton]; unfold cc1__wy_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg11.eq_unread hfs0; obtain rfl := harg12.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  iexists _; isplitr; swap; iexact H6; ipureintro; rotate_left
  isplitl [H7]
  iexists _; isplitr; swap; iexact H7; ipureintro; rotate_left
  isplitl [H8]
  iexists _; isplitr; swap; iexact H8; ipureintro; rotate_left
  isplitl [HS0]
  iexists _; isplitr; swap; iexact HS0; ipureintro; rotate_left
  iexists _; isplitr; swap; iexact HS1; ipureintro
  all_goals (sl_unfold_words; first | refine (read_writes _ _ hz3 ..).trans ?_ | refine (read_writes _ _ hz2 ..).trans ?_)
  all_goals simp only [View.readAt_eq_ld, harg2.read_unread, harg3.read_unread, harg4.read_unread, harg5.read_unread, harg6.read_unread, harg7.read_unread,
    harg11.read_unread, harg12.read_unread,
    View.ld_unit_zero (S := S1x512x1024) hz3, View.ld_unit_zero (S := S1024x512) hz2, View.ld_unit_zero (S := S512) hz1,
    View.ld_unit_zero (S := S1x512x512) hz3, View.ld_unit_zero (S := S512x1024) hz2, View.ld_unit_zero (S := S1024) hz1,
    View.ld_unit_zero (S := S1x1024) hz2, View.readCov_unit_zero (S := S1x1024) _ hz2]

end Cert.KernelIdeal.Proj

end
-- ==== Proof.KI.ProjFrame.lean ====
import proofs.«161341_j29137058136126_1_alg».proof.Proof.KI.ProjRunLast

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d)))

/-- What it hands back. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

theorem Phi_any (c : Dev nD) (t : Fin cfg1.N) :
    (dat V c).Φ t.castSucc ⊢ (iprop(iprop(iprop((∃ d, owns (c : Thread nD τ) scM0 fullShare d) ∗ (∃ d, owns (c : Thread nD τ) scM1 fullShare d)) ∗ restO (F := F) c) ∗ (∃ r, prngReg c r)) : sProp 𝕄) := by
  by_cases hz : t.val = 0
  · rw [PhiS_castSucc V c t, PhiS_zero V c _ _ hz, PhiA_eq]
  · rw [PhiS_castSucc V c t, PhiS_pos V c _ _ hz]
    iintro ⟨⟨⟨HS0, HS1⟩, Hr⟩, Hg⟩
    iframe Hr Hg
    isplitl [HS0]; · iexists _; iexact HS0
    iexists _; iexact HS1

/-- The body at any point, by the point's place in its batch: the case's run, then each written buffer read back. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  rw [show (dat V c).leavesExact 5 t = owns (c : Thread nD τ) (ms_5 t) fullShare ((dat V c).after 5 t) from by
    unfold Dat.leavesExact; rw [liveAt_5 t], after_5]
  rw [show (dat V c).leavesExact 6 t = owns (c : Thread nD τ) (ms_6 t) fullShare ((dat V c).after 6 t) from by
    unfold Dat.leavesExact; rw [liveAt_6 t], after_6]
  by_cases h0 : t.val % 8 = 0
  · have hc0 : cond_0 (grid1.coords t) := (hcond_0 t).mpr h0
    have hc1 : ¬cond_1 (grid1.coords t) := fun h => by have := (hcond_1 t).mp h; omega
    rw [Dat.leavesExact_idle (dat V c) 7 t (idleAt_7 t hc1) (noFlush_7 t hc1),
      Dat.leavesExact_idle (dat V c) 8 t (idleAt_8 t hc1) (noFlush_8 t hc1)]
    rw [acc0At_first V c t h0, acc1At_first V c t h0]
    unfold wyAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := Phi_any V c t $$ HΦ
    icases HΦ' with ⟨⟨⟨HS0, HS1⟩, Hr⟩, Hg⟩
    iapply (run_First c (grid1.coords t) _ _ _ _ _ _ _ _ _ _ _ _ _ _ _ _ _ _ _ _ _ _ hc0 hc1 (x0At V c t) (x1At V c t) (x2At V c t) (x3At V c t) (x4At V c t) (x5At V c t) _ _ Set.univ _)
    iframe H0 H1 H2 H3 H4 H5 H7 H8 HS0 HS1
    isplitl [H6]; · iexists _; iexact H6
    iintro ⟨H0, H1, H2, H3, H4, H5, H6, H7, H8, HS0, HS1⟩
    iframe HS0 HS1 Hr Hg Ho H0 H1 H2 H3 H4 H5 H6
    isplitl [H7]; · iexists _; iexact H7
    iexists _; iexact H8
  · have hz : t.val ≠ 0 := fun h => h0 (by rw [h])
    have hc0 : ¬cond_0 (grid1.coords t) := fun h => h0 ((hcond_0 t).mp h)
    by_cases h7 : t.val % 8 = 7
    · have hc1 : cond_1 (grid1.coords t) := (hcond_1 t).mpr h7
      rw [show (dat V c).leavesExact 7 t = owns (c : Thread nD τ) (ms_7 t) fullShare ((dat V c).after 7 t) from by
        unfold Dat.leavesExact; rw [liveAt_7 t hc1], after_7]
      rw [show (dat V c).leavesExact 8 t = owns (c : Thread nD τ) (ms_8 t) fullShare ((dat V c).after 8 t) from by
        unfold Dat.leavesExact; rw [liveAt_8 t hc1], after_8]
      rw [acc0At_next V c t h0, acc1At_next V c t h0]
      unfold wyAt
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_Last c (grid1.coords t) _ _ _ _ _ _ _ _ _ _ _ _ _ _ _ _ _ _ _ _ _ _ hc0 hc1 (x0At V c t) (x1At V c t) (x2At V c t) (x3At V c t) (x4At V c t) (x5At V c t) _ _ Set.univ _)
      iframe H0 H1 H2 H3 H4 H5 HS0 HS1
      isplitl [H6]; · iexists _; iexact H6
      isplitl [H7]; · iexists _; iexact H7
      isplitl [H8]; · iexists _; iexact H8
      iintro ⟨H0, H1, H2, H3, H4, H5, H6, H7, H8, HS0, HS1⟩
      iframe
    · have hc1 : ¬cond_1 (grid1.coords t) := fun h => h7 ((hcond_1 t).mp h)
      rw [Dat.leavesExact_idle (dat V c) 7 t (idleAt_7 t hc1) (noFlush_7 t hc1),
        Dat.leavesExact_idle (dat V c) 8 t (idleAt_8 t hc1) (noFlush_8 t hc1)]
      rw [acc0At_next V c t h0, acc1At_next V c t h0]
      unfold wyAt
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_Mid c (grid1.coords t) _ _ _ _ _ _ _ _ _ _ _ _ _ _ _ _ _ _ _ _ _ _ hc0 hc1 (x0At V c t) (x1At V c t) (x2At V c t) (x3At V c t) (x4At V c t) (x5At V c t) _ _ _ _ Set.univ _)
      iframe H0 H1 H2 H3 H4 H5 H7 H8 HS0 HS1
      isplitl [H6]; · iexists _; iexact H6
      iintro ⟨H0, H1, H2, H3, H4, H5, H6, H7, H8, HS0, HS1⟩
      iframe HS0 HS1 Hr Hg Ho H0 H1 H2 H3 H4 H5 H6
      isplitl [H7]; · iexists _; iexact H7
      iexists _; iexact H8

/-- The library's body obligation, at every point. -/
theorem body_obligation (c : Dev nD) : BodyObligation (dat (F := F) V c) (defs₀ (F := F)) Variants.none () Set.univ := fun t => by
  rw [bigSep_W1, bigSep_W1]
  exact sound_body V c t

theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨⟨HS0, HS1⟩, Hr⟩, Hg⟩
  iframe Hr Hg
  isplitl [HS0]; · iexists _; iexact HS0
  iexists _; iexact HS1

theorem hout (c : Dev nD) : (dat V c).Φ (Fin.last cfg1.N) ⊢ (Pipeline.ΦA spec1 c : sProp 𝕄) :=
  Phi_out V c _ (by rw [Fin.val_last]; have : cfg1.N = 32 := N_1; omega)

end Cert.KernelIdeal.Proj

end
-- ==== Proof.KI.NormFrame.lean ====
import proofs.«161341_j29137058136126_1_alg».proof.Proof.Gen.KernelIdeal.Launch
import proofs.«161341_j29137058136126_1_alg».proof.Proof.Gen.KernelIdeal.Skeleton
import proofs.«161341_j29137058136126_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rT : Rect S1x512x1024 := Rect.unit (s := S1x512x1024) ![0, 0, 0] S1x512x1024.size inb_S1x512x1024_S1x512x1024_0_0_0
abbrev rC : Rect S1024 := Rect.unit (s := S1024) ![0] S1024.size inb_S1024_S1024_0

theorem cover6 (p0 : Vec F S1x512x1024 .f32) (y : S1x512x1024.Idx) :
    ∃ pc ∈ ([⟨rT, p0⟩] : List (View.Piece (Elt F) S1x512x1024 .f32)), y ∈ pc.1.set :=
  View.cover_of_tiled [⟨rT, p0⟩] S1x512x1024.size (by rfl) y

theorem hzT : (![0, 0, 0] : Fin 3 → Nat) = fun _ => 0 := funext fun a => by fin_cases a <;> rfl
theorem hzC : (![0] : Fin 1 → Nat) = fun _ => 0 := funext fun a => by fin_cases a <;> rfl

-- A single piece over the whole shape at offset zero is its payload, and a whole read at offset zero is the contents.
theorem canon_pay (x0 : Vec F S1x512x1024 .bf16) (x1 : Vec F S1x512x1024 .f32) (x2 x3 x4 x5 : Vec F S1024 .f32) :
    (View.canon [⟨rT, k2_pay1 (View.ld x0 rT) (View.ld x1 rT) (View.ld x3 rC) (View.ld x2 rC) (View.ld x4 rC) (View.ld x5 rC)⟩] : Vec F S1x512x1024 .f32) = k2_pay1 x0 x1 x3 x2 x4 x5 := by
  rw [View.canon_unit_zero hzT]
  simp only [View.ld_unit_zero (S := S1x512x1024) hzT, View.ld_unit_zero (S := S1024) hzC]

theorem sound_kernel (c : Dev nD) (E : Set ℕ) (i : grid2.Coords)
    (arg0 : Memref sig .tc .vmem S1x512x1024 .bf16) (harg0 : arg0.IsWhole) (arg1 : Memref sig .tc .vmem S1x512x1024 .f32) (harg1 : arg1.IsWhole)
    (arg2 : Memref sig .tc .vmem S1024 .f32) (harg2 : arg2.IsWhole) (arg3 : Memref sig .tc .vmem S1024 .f32) (harg3 : arg3.IsWhole)
    (arg4 : Memref sig .tc .vmem S1024 .f32) (harg4 : arg4.IsWhole) (arg5 : Memref sig .tc .vmem S1024 .f32) (harg5 : arg5.IsWhole)
    (arg6 : Memref sig .tc .vmem S1x512x1024 .f32) (harg6 : arg6.IsWhole)
    (x0 : Vec F S1x512x1024 .bf16) (x1 : Vec F S1x512x1024 .f32) (x2 x3 x4 x5 : Vec F S1024 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (k2_pay1 x0 x1 x3 x2 x4 x5)) -∗ K ⟨⟩))
      ⊢ wp frame (wpE (defs₀ (F := F)) Variants.none c none) E (cc2__bn_kernel i arg0 harg0 arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover6 _)).trans (canon_pay _ _ _ _ _ _)

def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => k2_pay1 (blk V c 0 t) (blk V c 1 t) (blk V c 3 t) (blk V c 2 t) (blk V c 4 t) (blk V c 5 t)
  Φ _ := Pipeline.ΦA spec2 c
  q _ := fullShare
  owed _ := 0

theorem A_eq (c : Dev nD) (w : Fin cfg2.W) : (dat V c).A w = V c (Pipeline.arrRef spec2 w) := rfl
theorem q_eq (c : Dev nD) (w : Fin cfg2.W) : (dat V c).q w = fullShare := rfl
theorem owed_eq (c : Dev nD) (t : Fin (cfg2.N + 1)) : (dat V c).owed t = 0 := rfl

theorem after_6 (c : Dev nD) (t : Fin cfg2.N) :
    (dat V c).after 6 t = k2_pay1 (blk V c 0 t) (blk V c 1 t) (blk V c 3 t) (blk V c 2 t) (blk V c 4 t) (blk V c 5 t) := rfl

theorem before_0 (c : Dev nD) (t : Fin cfg2.N) (d) : (dat V c).before 0 t d = (dat V c).after 0 t :=
  (dat V c).before_in_eq_fetched 0 rfl (fun _ => rfl) (fun _ _ _ => rfl) (fun _ => rfl) t d
theorem before_1 (c : Dev nD) (t : Fin cfg2.N) (d) : (dat V c).before 1 t d = (dat V c).after 1 t :=
  (dat V c).before_in_eq_fetched 1 rfl (fun _ => rfl) (fun _ _ _ => rfl) (fun _ => rfl) t d
theorem before_2 (c : Dev nD) (t : Fin cfg2.N) (d) : (dat V c).before 2 t d = (dat V c).after 2 t :=
  (dat V c).before_in_eq_fetched 2 rfl (fun _ => rfl) (fun _ _ _ => rfl) (fun _ => rfl) t d
theorem before_3 (c : Dev nD) (t : Fin cfg2.N) (d) : (dat V c).before 3 t d = (dat V c).after 3 t :=
  (dat V c).before_in_eq_fetched 3 rfl (fun _ => rfl) (fun _ _ _ => rfl) (fun _ => rfl) t d
theorem before_4 (c : Dev nD) (t : Fin cfg2.N) (d) : (dat V c).before 4 t d = (dat V c).after 4 t :=
  (dat V c).before_in_eq_fetched 4 rfl (fun _ => rfl) (fun _ _ _ => rfl) (fun _ => rfl) t d
theorem before_5 (c : Dev nD) (t : Fin cfg2.N) (d) : (dat V c).before 5 t d = (dat V c).after 5 t :=
  (dat V c).before_in_eq_fetched 5 rfl (fun _ => rfl) (fun _ _ _ => rfl) (fun _ => rfl) t d

-- The kernel's triple at the point's blocks; the invariant and the dues are framed.
theorem body_obligation (c : Dev nD) : BodyObligation (dat (F := F) V c) (defs₀ (F := F)) Variants.none () Set.univ := fun t => by
  rw [bigSep_W2, bigSep_W2]
  simp only [before_0, before_1, before_2, before_3, before_4, before_5]
  rw [show (dat V c).Φ t.succ = (dat V c).Φ t.castSucc from rfl, show (dat V c).owesAt () t.succ = (dat V c).owesAt () t.castSucc from rfl,
    show (dat V c).after 6 t = k2_pay1 ((dat V c).after 0 t) ((dat V c).after 1 t) ((dat V c).after 3 t) ((dat V c).after 2 t) ((dat V c).after 4 t) ((dat V c).after 5 t) from rfl]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ ((dat V c).after 0 t) ((dat V c).after 1 t) ((dat V c).after 2 t) ((dat V c).after 3 t) ((dat V c).after 4 t) ((dat V c).after 5 t) _)
  iframe H0 H1 H2 H3 H4 H5
  isplitl [H6]; · iexists _; iexact H6
  iintro ⟨H0, H1, H2, H3, H4, H5, H6⟩
  iframe

theorem hin (c : Dev nD) : (Pipeline.ΦA spec2 c : sProp 𝕄) ⊢ (dat V c).Φ 0 := .refl

theorem hout (c : Dev nD) : (dat V c).Φ (Fin.last cfg2.N) ⊢ (Pipeline.ΦA spec2 c : sProp 𝕄) := .refl

end Cert.KernelIdeal.Norm

end
-- ==== Proof.KI.Launch.lean ====
import proofs.«161341_j29137058136126_1_alg».proof.Proof.KI.GramFrame
import proofs.«161341_j29137058136126_1_alg».proof.Proof.KI.ProjFrame
import proofs.«161341_j29137058136126_1_alg».proof.Proof.KI.NormFrame
import proofs.«161341_j29137058136126_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (Gram.dat (V1 m ρ) c).arrAt w cfg0.N
theorem W2_arr (c : Dev nD) (w : Fin cfg0.W) :
    W2 m ρ c (Proc.devRef .tc (Pipeline.arrRef spec0 w)) = (Gram.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (Proj.dat (V2 m ρ) c).arrAt w cfg1.N
theorem W3_arr (c : Dev nD) (w : Fin cfg1.W) :
    W3 m ρ c (Proc.devRef .tc (Pipeline.arrRef spec1 w)) = (Proj.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (Norm.dat (V4 m ρ) c).arrAt w cfg2.N
theorem W5_arr (c : Dev nD) (w : Fin cfg2.W) :
    W5 m ρ c (Proc.devRef .tc (Pipeline.arrRef spec2 w)) = (Norm.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev W6 : Dev nD → Valuation τ sig (Elt F) := fun c => StableHlo.after hostOps3 (W5 m ρ c)

def pdats : (p : Fin 3) → (c : Dev nD) → Dat τ (Elt F) Unit ℕ (UR sig nD τ) ℕ (Pipeline.pin (pcfgs (F := F)) adm p) c
  | ⟨0, _⟩ => fun c => Gram.dat (V1 m ρ) c
  | ⟨1, _⟩ => fun c => Proj.dat (V2 m ρ) c
  | ⟨2, _⟩ => fun c => Norm.dat (V4 m ρ) c

-- Off a region's arrays nothing changes, and an input window's array is handed back as it was entered.
theorem keep_of {cfg : Cfg sig Λ₀} {c : Dev nD} (d : Dat τ (Elt F) Unit ℕ (UR sig nD τ) ℕ cfg c) (Wi Wo : Valuation τ sig (Elt F))
    (harr : ∀ w, Wo (Proc.devRef .tc (Pipeline.arrRef cfg.spec w)) = d.arrAt w cfg.N)
    (hne : ∀ b, (∀ w, Pipeline.arrRef cfg.spec w ≠ b) → Wo (Proc.devRef .tc b) = Wi (Proc.devRef .tc b))
    (hA : ∀ w, d.A w = Wi (Proc.devRef .tc (Pipeline.arrRef cfg.spec w)))
    (b : Ref sig .tc) (hb : ∀ w, Pipeline.arrRef cfg.spec w = b → (cfg.win w).isOut = false) :
    Wo (Proc.devRef .tc b) = Wi (Proc.devRef .tc b) := by
  by_cases h : ∃ w, Pipeline.arrRef cfg.spec w = b
  · obtain ⟨w, rfl⟩ := h
    exact (harr w).trans ((d.arrAt_in w (hb w rfl) _).trans (hA w))
  · exact hne b fun w e => h ⟨w, e⟩

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- Every step leaves such a buffer alone, so a memory that agrees with W6 on it has it as launched.
theorem kept_at {s : MemSt nD τ sig (Elt F)}
    (h : ∀ c : Dev nD, ∀ b ∈ Pipeline.ucRefs τ sig, s.mem ((c : Thread nD τ).1, b) = W6 m ρ c b) (c : Dev nD) (r : Ref sig .tc)
    (hr : ¬ (Proc.devRef .tc r : DevRef τ sig).isScoped ∧ r ∉ hostOps0_W ∧ r ∉ hostOps2_W ∧ r ∉ hostOps3_W
      ∧ (∀ w, Pipeline.arrRef spec0 w = r → (cfg0.win w).isOut = false)
      ∧ (∀ w, Pipeline.arrRef spec1 w = r → (cfg1.win w).isOut = false)
      ∧ ∀ w, Pipeline.arrRef spec2 w = r → (cfg2.win w).isOut = false) :
    s.mem ((c.tc : Thread nD τ).loc r) = m ((c.tc : Thread nD τ).loc r) :=
  let ⟨hu, h0, h2, h3, k0, k1, k2⟩ := hr
  (h c _ (mem_uc r hu)).trans <|
  (StableHlo.after_of_writes_sub hostOps3 _ hostOps3_writes h3).trans <|
  (keep_of (Norm.dat (V4 m ρ) c) (W4 m ρ c) (W5 m ρ c) (W5_arr m ρ c) (W5_of_ne m ρ c) (Norm.A_eq (V4 m ρ) c) r k2).trans <|
  (StableHlo.after_of_writes_sub hostOps2 _ hostOps2_writes h2).trans <|
  (keep_of (Proj.dat (V2 m ρ) c) (W2 m ρ c) (W3 m ρ c) (W3_arr m ρ c) (W3_of_ne m ρ c) (Proj.A_eq (V2 m ρ) c) r k1).trans <|
  (keep_of (Gram.dat (V1 m ρ) c) (W1 m ρ c) (W2 m ρ c) (W2_arr m ρ c) (W2_of_ne m ρ c) (Gram.A_eq (V1 m ρ) c) r k0).trans <|
  (StableHlo.after_of_writes_sub hostOps0 (W0 m ρ c) hostOps0_writes h0).trans rfl

-- With nothing owed the dues carry no tally, and a bound by everything holds of any recorded pair.
theorem owesAt_of_nothing {cfg : Cfg sig Λ₀} {c : Dev nD} (d : Dat τ (Elt F) Unit ℕ (UR sig nD τ) ℕ cfg c) (t : Fin (cfg.N + 1))
    (ho : d.owed t = 0) (hr : d.recorded t = Set.univ) :
    (iprop(∃ W, owes (c : Thread nD τ) (0 : CellTallies nD τ sig Unit) W) : sProp 𝕄) ⊢ d.owesAt () t := by
  unfold Pipeline.Dat.owesAt Pipeline.owesWithin
  rw [ho]
  iintro ⟨%W, HO⟩; iexists W; isplitr
  · ipureintro; exact fun x _ => Or.inl (by rw [hr]; exact Set.mem_univ x)
  iexact HO
theorem nothing_of_owesAt {cfg : Cfg sig Λ₀} {c : Dev nD} (d : Dat τ (Elt F) Unit ℕ (UR sig nD τ) ℕ cfg c) (t : Fin (cfg.N + 1))
    (ho : d.owed t = 0) :
    d.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

set_option backward.isDefEq.respectTransparency.types false in
-- One construction for the three regions: a region's facts enter as hypotheses, so each region is an instance.
def reg (p : Fin 3) (lf : Pipeline.LaunchFacts (nD := nD) (τ := τ) cfgs p) (Wi Wo : Dev nD → Valuation τ sig (Elt F))
    (hb : ∀ c, BodyObligation (pdats m ρ p c) (defs₀ (F := F)) 𝒱₀ () Set.univ)
    (ho : ∀ c t, (pdats m ρ p c).owed t = 0) (hq : ∀ c w, (pdats m ρ p c).q w = fullShare)
    (hr : ∀ c, (pdats m ρ p c).recorded 0 = Set.univ)
    (hA : ∀ c w, (pdats m ρ p c).A w = Wi c (Proc.devRef .tc (Pipeline.arrRef (cfgs p).spec w)))
    (hi : ∀ c, (Pipeline.ΦA (cfgs p).spec c : sProp 𝕄) ⊢ (pdats m ρ p c).Φ 0)
    (he : ∀ c, (pdats m ρ p c).Φ (Fin.last (cfgs p).N) ⊢ (Pipeline.ΦA (cfgs p).spec c : sProp 𝕄))
    (harr : ∀ c w, Wo c (Proc.devRef .tc (Pipeline.arrRef (cfgs p).spec w)) = (pdats m ρ p c).arrAt w (cfgs p).N)
    (hne : ∀ c b, (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m ρ p c) 0 (ho c 0) (hr c)); iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine BIBase.Entails.trans (he c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m ρ p c) (Fin.last _) (ho c (Fin.last _))); iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (W2 m ρ) (Gram.body_obligation (V1 m ρ)) (Gram.owed_eq (V1 m ρ)) (Gram.q_eq (V1 m ρ))
      (fun _ => rfl) (Gram.A_eq (V1 m ρ)) (Gram.hin (V1 m ρ)) (Gram.hout (V1 m ρ)) (W2_arr m ρ) (W2_of_ne m ρ)),
    .region (reg m ρ 1 launch1 (W2 m ρ) (W3 m ρ) (Proj.body_obligation (V2 m ρ)) (Proj.owed_eq (V2 m ρ)) (Proj.q_eq (V2 m ρ))
      (fun _ => rfl) (Proj.A_eq (V2 m ρ)) (Proj.hin (V2 m ρ)) (Proj.hout (V2 m ρ)) (W3_arr m ρ) (W3_of_ne m ρ)),
    .host (hseg hostOps2 hostOps2_sub hostOps2_fresh (W3 m ρ)),
    .region (reg m ρ 2 launch2 (W4 m ρ) (W5 m ρ) (Norm.body_obligation (V4 m ρ)) (Norm.owed_eq (V4 m ρ)) (Norm.q_eq (V4 m ρ))
      (fun _ => rfl) (Norm.A_eq (V4 m ρ)) (Norm.hin (V4 m ρ)) (Norm.hout (V4 m ρ)) (W5_arr m ρ) (W5_of_ne m ρ)),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
-- The six segments chain from the contents W0 to W6, each entered from what the one before leaves.
theorem run_all : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

-- What the frame claim says of a final memory: each argument array as launched.
def Kept (s : MemSt nD τ sig (Elt F)) : Prop := ∀ c : Dev nD,
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)

-- Each argument array is unscoped, written by no operation outside the regions, and no output window's array.
theorem kept (s : MemSt nD τ sig (Elt F))
    (h : ∀ c : Dev nD, ∀ b ∈ Pipeline.ucRefs τ sig, s.mem ((c : Thread nD τ).1, b) = W6 m ρ c b) : Kept m s := fun c =>
  ⟨kept_at m ρ h c _ (by decide), kept_at m ρ h c _ (by decide), kept_at m ρ h c _ (by decide), kept_at m ρ h c _ (by decide),
    kept_at m ρ h c _ (by decide), kept_at m ρ h c _ (by decide), kept_at m ρ h c _ (by decide), kept_at m ρ h c _ (by decide),
    kept_at m ρ h c _ (by decide), kept_at m ρ h c _ (by decide), kept_at m ρ h c _ (by decide)⟩

theorem frame : θ_run defs (onTc (τ := τ) (main (F := F))) ⟨m, fun _ => 0, ρ⟩ (fun r => Kept m r.2) :=
  (θ_run defs _ _).mono (fun r h => kept m ρ r.2 h) (run_all m ρ)

end Cert.KernelIdeal.Whole

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev B := Fin 4
abbrev N := Fin 4096
abbrev C := Fin 1024
abbrev I := Fin 512
abbrev T := Fin 8
abbrev R := Fin 512

def row (t : T) (r : R) : N := ⟨t.val * 512 + r.val, by have := t.isLt; have := r.isLt; omega⟩

structure Inputs where
  v : B → N → C → EReal
  gw : I → C → EReal
  gb : I → EReal
  tw : I → C → EReal
  tb : I → EReal
  pw : I → C → EReal
  pb : I → EReal
  ww : C → I → EReal
  wb : C → EReal
  gamma : C → EReal
  beta : C → EReal

abbrev c4096 : EReal := Ideal.ofBits .f32 0x45800000#32
abbrev c16384 : EReal := Ideal.ofBits .f32 0x46800000#32
abbrev cInv4096 : EReal := Ideal.ofBits .f32 0x39800000#32
abbrev cEps : EReal := Ideal.ofBits .f32 0x3727C5AC#32

variable (x : Inputs)

def lin (w : I → C → EReal) (bias : I → EReal) (b : B) (n : N) (i : I) : EReal :=
  (∑ k : C, x.v b n k * w i k) + bias i

def gv : B → N → I → EReal := lin x x.gw x.gb
def th : B → N → I → EReal := lin x x.tw x.tb
def ph : B → N → I → EReal := lin x x.pw x.pb

def gram (b : B) (j i : I) : EReal :=
  (∑ t : T, ∑ r : R, ph x b (row t r) j * gv x b (row t r) i) * cInv4096

def yK (b : B) (n : N) (i : I) : EReal := ∑ j : I, th x b n j * gram x b j i

def wyK (b : B) (n : N) (c : C) : EReal := (∑ i : I, yK x b n i * x.ww c i) + x.wb c

def sumK (c : C) : EReal := ∑ b : B, ∑ t : T, ∑ r : R, wyK x b (row t r) c
def sqK (c : C) : EReal := ∑ b : B, ∑ t : T, ∑ r : R, wyK x b (row t r) c * wyK x b (row t r) c

def meanK (c : C) : EReal := Ideal.div (sumK x c) c16384
def varK (c : C) : EReal := Ideal.div (sqK x c) c16384 - meanK x c * meanK x c

def outK (b : B) (n : N) (c : C) : EReal :=
  (wyK x b n c - meanK x c) * Ideal.rsqrt (varK x c + cEps) * x.gamma c + x.beta c + x.v b n c

def attn (b : B) (n m : N) : EReal := Ideal.div (∑ i : I, th x b n i * ph x b m i) c4096

def yR (b : B) (n : N) (i : I) : EReal := ∑ m : N, attn x b n m * gv x b m i

def wyR (b : B) (n : N) (c : C) : EReal := (∑ i : I, yR x b n i * x.ww c i) + x.wb c

def sumR (c : C) : EReal := ∑ b : B, ∑ n : N, wyR x b n c
def meanR (c : C) : EReal := Ideal.div (sumR x c) c16384
def varR (c : C) : EReal :=
  Ideal.div (∑ b : B, ∑ n : N, (wyR x b n c - meanR x c) * (wyR x b n c - meanR x c)) c16384

def outR (b : B) (n : N) (c : C) : EReal :=
  (wyR x b n c - meanR x c) * Ideal.rsqrt (varR x c + cEps) * x.gamma c + x.beta c + x.v b n c

abbrev Sv : Shape := ⟨4, ![4, 1, 4096, 1024]⟩
abbrev Sic : Shape := ⟨2, ![512, 1024]⟩
abbrev Si : Shape := ⟨1, ![512]⟩
abbrev Sci : Shape := ⟨2, ![1024, 512]⟩
abbrev Sc : Shape := ⟨1, ![1024]⟩

def inputsOf (a0 : Sv.Idx → EReal) (a1 : Sic.Idx → EReal) (a2 : Si.Idx → EReal) (a3 : Sic.Idx → EReal) (a4 : Si.Idx → EReal)
    (a5 : Sic.Idx → EReal) (a6 : Si.Idx → EReal) (a7 : Sci.Idx → EReal) (a8 : Sc.Idx → EReal) (a9 : Sc.Idx → EReal)
    (a10 : Sc.Idx → EReal) : Inputs where
  v b n c := a0 (ix4 b 0 n c)
  gw i c := a1 (ix2 i c)
  gb i := a2 (ix1 i)
  tw i c := a3 (ix2 i c)
  tb i := a4 (ix1 i)
  pw i c := a5 (ix2 i c)
  pb i := a6 (ix1 i)
  ww c i := a7 (ix2 c i)
  wb c := a8 (ix1 c)
  gamma c := a9 (ix1 c)
  beta c := a10 (ix1 c)

def asArray (f : B → N → C → EReal) : Sv.Idx → EReal := fun j => f (j 0) (j 2) (j 3)

structure Inputs.Finite (x : Inputs) : Prop where
  v : ∀ b n c, ∃ r : ℝ, x.v b n c = (r : EReal)
  gw : ∀ i c, ∃ r : ℝ, x.gw i c = (r : EReal)
  gb : ∀ i, ∃ r : ℝ, x.gb i = (r : EReal)
  tw : ∀ i c, ∃ r : ℝ, x.tw i c = (r : EReal)
  tb : ∀ i, ∃ r : ℝ, x.tb i = (r : EReal)
  pw : ∀ i c, ∃ r : ℝ, x.pw i c = (r : EReal)
  pb : ∀ i, ∃ r : ℝ, x.pb i = (r : EReal)
  ww : ∀ c i, ∃ r : ℝ, x.ww c i = (r : EReal)
  wb : ∀ c, ∃ r : ℝ, x.wb c = (r : EReal)
  gamma : ∀ c, ∃ r : ℝ, x.gamma c = (r : EReal)
  beta : ∀ c, ∃ r : ℝ, x.beta c = (r : EReal)

end Cert.Spec

end
-- ==== Proof.KI.GramPay.lean ====
import proofs.«161341_j29137058136126_1_alg».proof.Proof.Gen.KernelIdeal.Skeleton
import proofs.«161341_j29137058136126_1_alg».proof.Proof.Spec
import Idealize.ShloMosaic.PureOps.Ideal.Laws
import Idealize.ShloMosaic.Lib.ValueIdx
import Idealize.ShloMosaic.Lib.ValueLayout

noncomputable section

namespace Cert.KernelIdeal.Tile

open Idealize.ShloMosaic Idealize.ShloMosaic.ValueIdx

theorem ix1_of {n0 : ℕ} (e : (⟨1, ![n0]⟩ : Shape).Idx) {a : Fin n0} (h0 : (e 0).val = a.val) : e = ix1 a :=
  funext fun d => match d with | ⟨0, _⟩ => Fin.ext h0
theorem ix2_of {n0 n1 : ℕ} (e : (⟨2, ![n0, n1]⟩ : Shape).Idx) {a : Fin n0} {b : Fin n1} (h0 : (e 0).val = a.val)
    (h1 : (e 1).val = b.val) : e = ix2 a b :=
  funext fun d => match d with | ⟨0, _⟩ => Fin.ext h0 | ⟨1, _⟩ => Fin.ext h1
theorem ix3_of {n0 n1 n2 : ℕ} (e : (⟨3, ![n0, n1, n2]⟩ : Shape).Idx) {a : Fin n0} {b : Fin n1} {c : Fin n2}
    (h0 : (e 0).val = a.val) (h1 : (e 1).val = b.val) (h2 : (e 2).val = c.val) : e = ix3 a b c :=
  funext fun d => match d with | ⟨0, _⟩ => Fin.ext h0 | ⟨1, _⟩ => Fin.ext h1 | ⟨2, _⟩ => Fin.ext h2

variable {sl sr so : Shape} (D : DotDims sl sr so)

-- An operand axis the product keeps reads the result's coordinate at that axis's place among the result's axes.
theorem lhs_free {a : Fin sl.rank} (p : Fin so.rank) (hb : a ∉ D.lhsBatch) (hn : a ∈ D.lhsNonContracting)
    (hp : D.lhsBatch.length + D.lhsNonContracting.idxOf a = p.val) (j : so.Idx) (k : D.contr.Idx) :
    (D.lhsIdx j k a).val = (j p).val := by
  unfold DotDims.lhsIdx
  rw [dif_neg hb, dif_pos hn]
  simp only [Fin.val_cast]
  exact congrArg (fun q => (j q).val) (Fin.ext hp)
theorem rhs_free {a : Fin sr.rank} (p : Fin so.rank) (hb : a ∉ D.rhsBatch) (hn : a ∈ D.rhsNonContracting)
    (hp : D.lhsBatch.length + D.lhsNonContracting.length + D.rhsNonContracting.idxOf a = p.val) (j : so.Idx) (k : D.contr.Idx) :
    (D.rhsIdx j k a).val = (j p).val := by
  unfold DotDims.rhsIdx
  rw [dif_neg hb, dif_pos hn]
  simp only [Fin.val_cast]
  exact congrArg (fun q => (j q).val) (Fin.ext hp)

-- A product of two-axis operands into the zero accumulator, one axis of each contracted: the sum over that axis.
theorem mm2 (n : ℕ) (hr : D.contr.rank = 1) (hs : D.contr.size ⟨0, by omega⟩ = n) {fl cl : Fin sl.rank} {fr cr : Fin sr.rank}
    (pl pr : Fin so.rank)
    (h : (∀ a, a = fl ∨ a = cl) ∧ fl ∉ D.lhsBatch ∧ fl ∈ D.lhsNonContracting
      ∧ D.lhsBatch.length + D.lhsNonContracting.idxOf fl = pl.val ∧ D.lhsContracting = [cl]
      ∧ (∀ a, a = fr ∨ a = cr) ∧ fr ∉ D.rhsBatch ∧ fr ∈ D.rhsNonContracting
      ∧ D.lhsBatch.length + D.lhsNonContracting.length + D.rhsNonContracting.idxOf fr = pr.val ∧ D.rhsContracting = [cr])
    {φ₁ φ₂ : FTy} (x : FVec Ideal sl φ₁) (w : FVec Ideal sr φ₂) (o : so.Idx) (L : Fin n → sl.Idx) (R : Fin n → sr.Idx)
    (hL : ∀ k, (L k fl).val = (o pl).val ∧ (L k cl).val = k.val) (hR : ∀ k, (R k fr).val = (o pr).val ∧ (R k cr).val = k.val) :
    matmul D none x w (constant (F := Ideal) so .f32 0x00000000#32) o = ∑ k : Fin n, x (L k) * w (R k) := by
  obtain ⟨al, h1, h2, h3, h4, ar, h5, h6, h7, h8⟩ := h
  refine (Ideal.matmul_constant_zero_apply D none x w o).trans ?_
  rw [← Equiv.sum_comp (contrEquiv1 D n hr hs).symm]
  refine Finset.sum_congr rfl fun k _ => ?_
  have hk := contrEquiv1_symm_val D n hr hs k
  refine congrArg₂ (fun a b => x a * w b) (funext fun a => Fin.ext ?_) (funext fun a => Fin.ext ?_)
  · rcases al a with rfl | rfl
    · exact (lhs_free D pl h1 h2 h3 o _).trans (hL k).1.symm
    · exact ((D.lhsIdx_val_of_single h4 o _).trans hk).trans (hL k).2.symm
  · rcases ar a with rfl | rfl
    · exact (rhs_free D pr h5 h6 h7 o _).trans (hR k).1.symm
    · exact ((D.rhsIdx_val_of_single h8 o _).trans hk).trans (hR k).2.symm

-- A quantity restarted at the first of eight points and stepped by its addend at the other seven is, at the last, the eight addends' sum.
theorem fold8 {N : ℕ} (f : (n : ℕ) → n < N → EReal) (q : ℕ) (h : 8 * q + 7 < N) (T : Fin 8 → EReal)
    (h0 : f (8 * q) (by omega) = T 0)
    (hs : ∀ (s : ℕ) (hs : s + 1 < 8), f (8 * q + (s + 1)) (by omega) = f (8 * q + s) (by omega) + T ⟨s + 1, hs⟩) :
    f (8 * q + 7) h = ∑ s, T s := by
  rw [Fin.sum_univ_eight, hs 6 (by decide), hs 5 (by decide), hs 4 (by decide), hs 3 (by decide), hs 2 (by decide),
    hs 1 (by decide), hs 0 (by decide), show f (8 * q + 0) _ = _ from h0]
  rfl

end Cert.KernelIdeal.Tile

namespace Cert.KernelIdeal.Gram

open Idealize.ShloMosaic Idealize.ShloMosaic.ValueIdx
open Cert.KernelIdeal Cert.KernelIdeal.Gen

theorem mm_xw {φ₁ φ₂ : FTy} (x : FVec Ideal S512x1024 φ₁) (w : FVec Ideal S1024x512 φ₂) (r i : Fin 512) :
    matmul dot_S512x1024_S1024x512_S512x512_1_0_0_1_n_n none x w (constant (F := Ideal) S512x512 .f32 0x00000000#32) (ix2 r i)
      = ∑ k : Fin 1024, x (ix2 r k) * w (ix2 k i) :=
  Tile.mm2 dot_S512x1024_S1024x512_S512x512_1_0_0_1_n_n 1024 rfl rfl (fl := 0) (cl := 1) (fr := 1) (cr := 0) 0 1 (by decide)
    x w _ (ix2 r ·) (ix2 · i) (fun _ => ⟨rfl, rfl⟩) (fun _ => ⟨rfl, rfl⟩)

theorem mm_tn {φ₁ φ₂ : FTy} (p : FVec Ideal S512x512 φ₁) (g : FVec Ideal S512x512 φ₂) (j i : Fin 512) :
    matmul dot_S512x512_S512x512_S512x512_0_0_1_1_n_n none p g (constant (F := Ideal) S512x512 .f32 0x00000000#32) (ix2 j i)
      = ∑ r : Fin 512, p (ix2 r j) * g (ix2 r i) :=
  Tile.mm2 dot_S512x512_S512x512_S512x512_0_0_1_1_n_n 512 rfl rfl (fl := 1) (cl := 0) (fr := 1) (cr := 0) 0 1 (by decide)
    p g _ (ix2 · j) (ix2 · i) (fun _ => ⟨rfl, rfl⟩) (fun _ => ⟨rfl, rfl⟩)

-- An affine image of a tile at row r, feature i: the channel sum through the weights plus the bias.
def affAt (x : FVec Ideal S1x512x1024 .f32) (w : FVec Ideal S1024x512 .f32) (b : FVec Ideal S512 .f32) (r i : Fin 512) : EReal :=
  (∑ k : Fin 1024, x (ix3 (0 : Fin 1) r k) * w (ix2 k i)) + b (ix1 i)

theorem pay1_apply (y : S512x512.Idx) : (k0_pay1 (F := Ideal)) y = 0 := by
  unfold k0_pay1
  exact (congrFun (shapeCast_self _ _) y).trans Ideal.ofBits_zero_f32

-- One step adds, at (j, i), the sum over the tile's rows of the second image's column j times the first image's column i.
theorem pay2_apply (x : FVec Ideal S1x512x1024 .f32) (wg wp : FVec Ideal S1024x512 .f32) (bg bp : FVec Ideal S512 .f32)
    (acc : FVec Ideal S512x512 .f32) (j i : Fin 512) :
    k0_pay2 x wg wp bg bp acc (ix2 j i) = acc (ix2 j i) + ∑ r : Fin 512, affAt x wp bp r j * affAt x wg bg r i := by
  unfold k0_pay2 affAt
  simp only [shapeCast_self, addf_apply, truncf_apply, mm_tn, mm_xw, shapeCast_1ab_ab_apply, shapeCast_a_1a_apply,
    broadcastTo_1b_ab_apply]

theorem pay3_apply (acc : FVec Ideal S512x512 .f32) (u : Fin 1) (j i : Fin 512) :
    k0_pay3 acc (ix3 u j i) = acc (ix2 j i) * Cert.Spec.cInv4096 := by
  unfold k0_pay3
  exact shapeCast_ab_1ab_apply _ shapeCasts_S512x512_S1x512x512 u j i

end Cert.KernelIdeal.Gram

end
-- ==== Proof.Stages.lean ====
import proofs.«161341_j29137058136126_1_alg».proof.Proof.Spec

noncomputable section

open scoped BigOperators

namespace Cert.Spec

open Idealize.ShloMosaic Idealize.ShloMosaic.ValueIdx

abbrev Sx : Shape := ⟨3, ![4, 4096, 1024]⟩
abbrev Sm : Shape := ⟨3, ![4, 512, 512]⟩
abbrev Ss : Shape := ⟨3, ![4, 1, 1024]⟩

def linArr (x0 : Sx.Idx → EReal) (wT : Sci.Idx → EReal) (bias : Si.Idx → EReal) (b : B) (n : N) (i : I) : EReal :=
  (∑ k : C, x0 (ix3 b n k) * wT (ix2 k i)) + bias (ix1 i)

def gramArr (x0 : Sx.Idx → EReal) (gT : Sci.Idx → EReal) (gb : Si.Idx → EReal) (pT : Sci.Idx → EReal) (pb : Si.Idx → EReal) :
    Sm.Idx → EReal := fun j =>
  (∑ t : T, ∑ r : R, linArr x0 pT pb (j 0) (row t r) (j 1) * linArr x0 gT gb (j 0) (row t r) (j 2)) * cInv4096

def wyArr (x0 : Sx.Idx → EReal) (tT : Sci.Idx → EReal) (tb : Si.Idx → EReal) (M : Sm.Idx → EReal) (wT : Sic.Idx → EReal)
    (wb : Sc.Idx → EReal) : Sx.Idx → EReal := fun j =>
  (∑ i : I, (∑ j' : I, linArr x0 tT tb (j 0) (j 1) j' * M (ix3 (j 0) j' i)) * wT (ix2 i (j 2))) + wb (ix1 (j 2))

def colSumArr (wy : Sx.Idx → EReal) : Ss.Idx → EReal := fun j =>
  ∑ t : T, ∑ r : R, wy (ix3 (j 0) (row t r) (j 2))
def colSqArr (wy : Sx.Idx → EReal) : Ss.Idx → EReal := fun j =>
  ∑ t : T, ∑ r : R, wy (ix3 (j 0) (row t r) (j 2)) * wy (ix3 (j 0) (row t r) (j 2))

def normArr (wy x0 : Sx.Idx → EReal) (mean var gamma beta : Sc.Idx → EReal) : Sx.Idx → EReal := fun j =>
  (wy j - mean (ix1 (j 2))) * Ideal.rsqrt (var (ix1 (j 2)) + cEps) * gamma (ix1 (j 2)) + beta (ix1 (j 2)) + x0 j

end Cert.Spec

end
-- ==== Proof.KI.GramBlk.lean ====
import proofs.«161341_j29137058136126_1_alg».proof.Proof.KI.GramDefs
import proofs.«161341_j29137058136126_1_alg».proof.Proof.KI.GramPay
import proofs.«161341_j29137058136126_1_alg».proof.Proof.Stages
import Idealize.ShloMosaic.Lib.Pipeline.Value

noncomputable section

namespace Cert.KernelIdeal.Gram

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem idx : ∀ t : Fin cfg0.N, win0_0.index t 0 = t.val / 8 ∧ win0_0.index t 1 = t.val % 8 ∧ win0_0.index t 2 = 0
    ∧ win0_1.index t 0 = 0 ∧ win0_1.index t 1 = 0 ∧ win0_2.index t 0 = 0 ∧ win0_3.index t 0 = 0 ∧ win0_3.index t 1 = 0
    ∧ win0_4.index t 0 = 0 ∧ win0_5.index t 0 = t.val / 8 ∧ win0_5.index t 1 = 0 ∧ win0_5.index t 2 = 0 :=
  (by decide +kernel : ∀ t : Fin grid0.N, _)

-- At point 8 b + nt the tile is rows 512 nt .. 512 nt + 511 of batch b; the weight and bias blocks are their whole arrays.
theorem blk0 (c : Dev nD) (t : Fin cfg0.N) (b : Fin 4) (nt : Fin 8) (ht : t.val = 8 * b.val + nt.val) (r : Fin 512) (k : Fin 1024) :
    blk V c 0 t (ix3 (0 : Fin 1) r k) = V c main_v0 (ix3 b (row nt r) k) := by
  obtain ⟨e0, e1, e2, -⟩ := idx t
  have := b.isLt
  have := nt.isLt
  exact congrArg (V c main_v0) (Tile.ix3_of (((cfg0.win 0).blk t).view.emb (ix3 (0 : Fin 1) r k))
    (by show win0_0.index t 0 * 1 + 1 * 0 = b.val; omega)
    (by show win0_0.index t 1 * 512 + 1 * r.val = nt.val * 512 + r.val; omega)
    (by show win0_0.index t 2 * 1024 + 1 * k.val = k.val; omega))
theorem blk1 (c : Dev nD) (t : Fin cfg0.N) (k : Fin 1024) (i : Fin 512) :
    blk V c 1 t (ix2 k i) = V c main_v1 (ix2 k i) := by
  obtain ⟨-, -, -, e0, e1, -⟩ := idx t
  exact congrArg (V c main_v1) (Tile.ix2_of (((cfg0.win 1).blk t).view.emb (ix2 k i))
    (by show win0_1.index t 0 * 1024 + 1 * k.val = k.val; omega)
    (by show win0_1.index t 1 * 512 + 1 * i.val = i.val; omega))
theorem blk2 (c : Dev nD) (t : Fin cfg0.N) (i : Fin 512) :
    blk V c 2 t (ix1 i) = V c main_arg2 (ix1 i) := by
  obtain ⟨-, -, -, -, -, e0, -⟩ := idx t
  exact congrArg (V c main_arg2) (Tile.ix1_of (((cfg0.win 2).blk t).view.emb (ix1 i))
    (by show win0_2.index t 0 * 512 + 1 * i.val = i.val; omega))
theorem blk3 (c : Dev nD) (t : Fin cfg0.N) (k : Fin 1024) (i : Fin 512) :
    blk V c 3 t (ix2 k i) = V c main_v3 (ix2 k i) := by
  obtain ⟨-, -, -, -, -, -, e0, e1, -⟩ := idx t
  exact congrArg (V c main_v3) (Tile.ix2_of (((cfg0.win 3).blk t).view.emb (ix2 k i))
    (by show win0_3.index t 0 * 1024 + 1 * k.val = k.val; omega)
    (by show win0_3.index t 1 * 512 + 1 * i.val = i.val; omega))
theorem blk4 (c : Dev nD) (t : Fin cfg0.N) (i : Fin 512) :
    blk V c 4 t (ix1 i) = V c main_arg6 (ix1 i) := by
  obtain ⟨-, -, -, -, -, -, -, -, e0, -⟩ := idx t
  exact congrArg (V c main_arg6) (Tile.ix1_of (((cfg0.win 4).blk t).view.emb (ix1 i))
    (by show win0_4.index t 0 * 512 + 1 * i.val = i.val; omega))

-- Tile nt's share of entry (j, i) of batch b's matrix.
def term (c : Dev nD) (b : Fin 4) (j i : Fin 512) (nt : Fin 8) : EReal :=
  ∑ r : Fin 512, linArr (V c main_v0) (V c main_v3) (V c main_arg6) b (row nt r) j
    * linArr (V c main_v0) (V c main_v1) (V c main_arg2) b (row nt r) i

theorem step (c : Dev nD) (t : Fin cfg0.N) (b : Fin 4) (nt : Fin 8) (ht : t.val = 8 * b.val + nt.val)
    (acc : FVec Ideal S512x512 .f32) (j i : Fin 512) :
    k0_pay2 (blk V c 0 t) (blk V c 1 t) (blk V c 3 t) (blk V c 2 t) (blk V c 4 t) acc (ix2 j i)
      = acc (ix2 j i) + term V c b j i nt := by
  rw [pay2_apply]
  unfold affAt term linArr
  simp only [blk0 V c t b nt ht, blk1 V c t, blk2 V c t, blk3 V c t, blk4 V c t]

end Cert.KernelIdeal.Gram

end
-- ==== Proof.KI.GramAcc.lean ====
import proofs.«161341_j29137058136126_1_alg».proof.Proof.KI.GramBlk

noncomputable section

namespace Cert.KernelIdeal.Gram

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem acc_last (c : Dev nD) (t : Fin cfg0.N) (q : ℕ) (hq : q < 4) (ht : t.val = 8 * q + 7) (j i : Fin 512) :
    accAt V c t.val t.isLt (ix2 j i) = ∑ nt : Fin 8, term V c ⟨q, hq⟩ j i nt := by
  obtain ⟨n, hn⟩ := t
  obtain rfl : n = 8 * q + 7 := ht
  exact Tile.fold8 (fun n hn => accAt V c n hn (ix2 j i)) q hn _
    ((congrFun (accAt_first V c ⟨8 * q, by omega⟩ (by show 8 * q % 8 = 0; omega)) _).trans
      ((step V c _ ⟨q, hq⟩ 0 rfl _ j i).trans (by rw [pay1_apply, zero_add])))
    fun s hs => (congrFun (accAt_next V c ⟨8 * q + (s + 1), by omega⟩ (by show ¬(8 * q + (s + 1)) % 8 = 0; omega)) _).trans
      (step V c _ ⟨q, hq⟩ ⟨s + 1, hs⟩ rfl _ j i)

end Cert.KernelIdeal.Gram

end
-- ==== Proof.KI.GramValue.lean ====
import proofs.«161341_j29137058136126_1_alg».proof.Proof.KI.GramAcc

noncomputable section

namespace Cert.KernelIdeal.Gram

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

-- Entry (b, j, i) is written once, after point 8 b + 7, as the eight tiles' sum times 2^-12.
theorem array_eq (c : Dev nD) :
    (dat (F := Ideal) V c).arrAt 5 cfg0.N
      = Cert.Spec.gramArr (V c main_v0) (V c main_v1) (V c main_arg2) (V c main_v3) (V c main_arg6) := by
  refine (dat V c).arrAt_eq_of_cover 5 _ (fun t hf => ?_) fun i => ?_
  · have h7 : t.val % 8 = 7 := (flush0_5 t).mp hf
    have hlt : t.val < 32 := lt_of_lt_of_eq t.isLt N_0
    obtain ⟨-, -, -, -, -, -, -, -, -, e0, e1, e2⟩ := idx t
    show (cfg0.win 5).cut (grid0.coords t) ((dat V c).after 5 t) = _
    rw [after_5]
    funext y
    obtain ⟨u, j, i, rfl⟩ : ∃ (u : Fin 1) (j i : Fin 512), y = ix3 u j i := ⟨y 0, y 1, y 2, eq_ix3 y⟩
    refine ((pay3_apply _ u j i).trans
      (congrArg (· * cInv4096) (acc_last V c t (t.val / 8) (by omega) (by omega) j i))).trans ?_
    show gramArr _ _ _ _ _ (ix3 (⟨t.val / 8, by omega⟩ : Fin 4) j i) = gramArr _ _ _ _ _ (((cfg0.win 5).blk t).view.emb (ix3 u j i))
    refine congrArg _ (Tile.ix3_of _ ?_ ?_ ?_).symm
    · show win0_5.index t 0 * 1 + 1 * u.val = t.val / 8; omega
    · show win0_5.index t 1 * 512 + 1 * j.val = j.val; omega
    · show win0_5.index t 2 * 512 + 1 * i.val = i.val; omega
  · have h0 : (i 0).val < 4 := (i 0).isLt
    have h1 : (i 1).val < 512 := (i 1).isLt
    have h2 : (i 2).val < 512 := (i 2).isLt
    have hlt : 8 * (i 0).val + 7 < cfg0.N := by rw [show cfg0.N = 32 from N_0]; omega
    obtain ⟨-, -, -, -, -, -, -, -, -, e0, e1, e2⟩ := idx ⟨_, hlt⟩
    simp only at e0 e1 e2
    refine ⟨⟨_, hlt⟩, (flush0_5 _).mpr (by show (8 * (i 0).val + 7) % 8 = 7; omega), ?_⟩
    show i ∈ ((View.whole main_v5).slice (win0_5.rect ⟨8 * (i 0).val + 7, hlt⟩)).set
    rw [View.set_slice_whole, Rect.mem_set_unit]
    intro a
    match a with
    | ⟨0, _⟩ => show win0_5.index _ 0 * 1 ≤ (i 0).val ∧ (i 0).val < win0_5.index _ 0 * 1 + 1; omega
    | ⟨1, _⟩ => show win0_5.index _ 1 * 512 ≤ (i 1).val ∧ (i 1).val < win0_5.index _ 1 * 512 + 512; omega
    | ⟨2, _⟩ => show win0_5.index _ 2 * 512 ≤ (i 2).val ∧ (i 2).val < win0_5.index _ 2 * 512 + 512; omega

end Cert.KernelIdeal.Gram

end
-- ==== Proof.KI.ProjPay.lean ====
import proofs.«161341_j29137058136126_1_alg».proof.Proof.KI.GramPay

noncomputable section

namespace Cert.KernelIdeal.Proj

open Idealize.ShloMosaic Idealize.ShloMosaic.ValueIdx
open Cert.KernelIdeal Cert.KernelIdeal.Gen

theorem mm_tm {φ₁ φ₂ : FTy} (x : FVec Ideal S512x512 φ₁) (w : FVec Ideal S512x512 φ₂) (r i : Fin 512) :
    matmul dot_S512x512_S512x512_S512x512_1_0_0_1_n_n none x w (constant (F := Ideal) S512x512 .f32 0x00000000#32) (ix2 r i)
      = ∑ k : Fin 512, x (ix2 r k) * w (ix2 k i) :=
  Tile.mm2 dot_S512x512_S512x512_S512x512_1_0_0_1_n_n 512 rfl rfl (fl := 0) (cl := 1) (fr := 1) (cr := 0) 0 1 (by decide)
    x w _ (ix2 r ·) (ix2 · i) (fun _ => ⟨rfl, rfl⟩) (fun _ => ⟨rfl, rfl⟩)

theorem mm_yw {φ₁ φ₂ : FTy} (x : FVec Ideal S512x512 φ₁) (w : FVec Ideal S512x1024 φ₂) (r : Fin 512) (c : Fin 1024) :
    matmul dot_S512x512_S512x1024_S512x1024_1_0_0_1_n_n none x w (constant (F := Ideal) S512x1024 .f32 0x00000000#32) (ix2 r c)
      = ∑ k : Fin 512, x (ix2 r k) * w (ix2 k c) :=
  Tile.mm2 dot_S512x512_S512x1024_S512x1024_1_0_0_1_n_n 512 rfl rfl (fl := 0) (cl := 1) (fr := 1) (cr := 0) 0 1 (by decide)
    x w _ (ix2 r ·) (ix2 · c) (fun _ => ⟨rfl, rfl⟩) (fun _ => ⟨rfl, rfl⟩)

-- The reduction over the rows, at channel c.
theorem colReduce_apply (w : FVec Ideal S512x1024 .f32) (h : S512x1024.Reduces [0] S1024) (hφ : FKind.Formats .f32)
    (hacc : (0x00000000#32 : BitVec 32) = FKind.add.neutral .f32 hφ) (c : Fin 1024) :
    multiReduction .add [0] S1024 w 0x00000000#32 h hφ hacc (ix1 c) = ∑ r : Fin 512, w (ix2 r c) :=
  (Ideal.multiReduction_add_single w 0x00000000#32 h hφ hacc (ix1 c)).trans
    (Finset.sum_congr rfl fun r _ => congrArg w (Tile.ix2_of _ rfl rfl))

theorem pay7_apply (x0 : Vec Ideal S1x512x1024 .f32) (x1 : Vec Ideal S1024x512 .f32) (x2 : Vec Ideal S512 .f32)
    (x3 : Vec Ideal S1x512x512 .f32) (x4 : Vec Ideal S512x1024 .f32) (x5 : Vec Ideal S1024 .f32) (r : Fin 512) (c : Fin 1024) :
    k1_pay7 x0 x1 x2 x3 x4 x5 (ix2 r c)
      = (∑ i : Fin 512, (∑ j : Fin 512, ((∑ k : Fin 1024, x0 (ix3 (0 : Fin 1) r k) * x1 (ix2 k j)) + x2 (ix1 j))
          * x3 (ix3 (0 : Fin 1) j i)) * x4 (ix2 i c)) + x5 (ix1 c) := by
  unfold k1_pay7
  simp only [addf_apply, truncf_apply, mm_yw, mm_tm, Gram.mm_xw, shapeCast_self, shapeCast_1ab_ab_apply,
    shapeCast_a_1a_apply, broadcastTo_1b_ab_apply]

theorem pay8_apply (x0 : Vec Ideal S1x512x1024 .f32) (x1 : Vec Ideal S1024x512 .f32) (x2 : Vec Ideal S512 .f32)
    (x3 : Vec Ideal S1x512x512 .f32) (x4 : Vec Ideal S512x1024 .f32) (x5 : Vec Ideal S1024 .f32) (u : Fin 1) (r : Fin 512) (c : Fin 1024) :
    k1_pay8 x0 x1 x2 x3 x4 x5 (ix3 u r c) = k1_pay7 x0 x1 x2 x3 x4 x5 (ix2 r c) := by
  unfold k1_pay8
  simp only [shapeCast_ab_1ab_apply, truncf_apply]

-- A column accumulator gains the tile's column sum (of squares); it is reset to zero and written out under one more unit axis.
theorem pay1_apply (w : FVec Ideal S512x1024 .f32) (a : Vec Ideal S1x1024 .f32) (u : Fin 1) (c : Fin 1024) :
    k1_pay1 w a (ix2 u c) = a (ix2 u c) + ∑ r : Fin 512, w (ix2 r c) := by
  unfold k1_pay1
  simp only [shapeCast_self, addf_apply, shapeCast_a_1a_apply]
  exact congrArg (a (ix2 u c) + ·) (colReduce_apply w _ _ _ c)
theorem pay2_apply (w : FVec Ideal S512x1024 .f32) (a : Vec Ideal S1x1024 .f32) (u : Fin 1) (c : Fin 1024) :
    k1_pay2 w a (ix2 u c) = a (ix2 u c) + ∑ r : Fin 512, w (ix2 r c) * w (ix2 r c) := by
  unfold k1_pay2
  simp only [shapeCast_self, addf_apply, shapeCast_a_1a_apply]
  exact congrArg (a (ix2 u c) + ·) (colReduce_apply (mulf w w) _ _ _ c)
theorem pay3_apply (a : Vec Ideal S1x1024 .f32) (u v : Fin 1) (c : Fin 1024) : k1_pay3 a (ix3 u v c) = a (ix2 v c) :=
  shapeCast_ab_1ab_apply _ _ u v c
theorem pay4_apply (a : Vec Ideal S1x1024 .f32) (u v : Fin 1) (c : Fin 1024) : k1_pay4 a (ix3 u v c) = a (ix2 v c) :=
  shapeCast_ab_1ab_apply _ _ u v c
theorem pay5_apply (j : S1x1024.Idx) : (k1_pay5 (F := Ideal)) j = 0 := by
  unfold k1_pay5
  exact (congrFun (shapeCast_self _ _) j).trans Ideal.ofBits_zero_f32
theorem pay6_apply (j : S1x1024.Idx) : (k1_pay6 (F := Ideal)) j = 0 := by
  unfold k1_pay6
  exact (congrFun (shapeCast_self _ _) j).trans Ideal.ofBits_zero_f32

end Cert.KernelIdeal.Proj

end
-- ==== Proof.KI.ProjTile.lean ====
import proofs.«161341_j29137058136126_1_alg».proof.Proof.KI.ProjDefs
import proofs.«161341_j29137058136126_1_alg».proof.Proof.KI.ProjPay
import proofs.«161341_j29137058136126_1_alg».proof.Proof.Stages
import Idealize.ShloMosaic.Lib.Pipeline.Value

noncomputable section

namespace Cert.KernelIdeal.Proj

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem idx : ∀ t : Fin cfg1.N,
    win1_0.index t 0 = t.val / 8 ∧ win1_0.index t 1 = t.val % 8 ∧ win1_0.index t 2 = 0
    ∧ win1_1.index t 0 = 0 ∧ win1_1.index t 1 = 0 ∧ win1_2.index t 0 = 0
    ∧ win1_3.index t 0 = t.val / 8 ∧ win1_3.index t 1 = 0 ∧ win1_3.index t 2 = 0
    ∧ win1_4.index t 0 = 0 ∧ win1_4.index t 1 = 0 ∧ win1_5.index t 0 = 0
    ∧ win1_6.index t 0 = t.val / 8 ∧ win1_6.index t 1 = t.val % 8 ∧ win1_6.index t 2 = 0
    ∧ win1_7.index t 0 = t.val / 8 ∧ win1_7.index t 1 = 0 ∧ win1_7.index t 2 = 0
    ∧ win1_8.index t 0 = t.val / 8 ∧ win1_8.index t 1 = 0 ∧ win1_8.index t 2 = 0 :=
  (by decide +kernel : ∀ t : Fin grid1.N, _)

-- At point 8 b + s the tile is rows 512 s .. 512 s + 511 of batch b and the matrix block is batch b's; the other four blocks are whole arrays.
theorem blk0 (c : Dev nD) (t : Fin cfg1.N) (b : Fin 4) (s : Fin 8) (ht : t.val = 8 * b.val + s.val) (r : Fin 512) (k : Fin 1024) :
    blk V c 0 t (ix3 (0 : Fin 1) r k) = V c main_v0 (ix3 b (row s r) k) := by
  obtain ⟨e0, e1, e2, -⟩ := idx t
  have := b.isLt
  have := s.isLt
  exact congrArg (V c main_v0) (Tile.ix3_of (((cfg1.win 0).blk t).view.emb (ix3 (0 : Fin 1) r k))
    (by show win1_0.index t 0 * 1 + 1 * 0 = b.val; omega)
    (by show win1_0.index t 1 * 512 + 1 * r.val = s.val * 512 + r.val; omega)
    (by show win1_0.index t 2 * 1024 + 1 * k.val = k.val; omega))
theorem blk1 (c : Dev nD) (t : Fin cfg1.N) (k : Fin 1024) (j : Fin 512) :
    blk V c 1 t (ix2 k j) = V c main_v2 (ix2 k j) := by
  obtain ⟨-, -, -, e0, e1, -⟩ := idx t
  exact congrArg (V c main_v2) (Tile.ix2_of (((cfg1.win 1).blk t).view.emb (ix2 k j))
    (by show win1_1.index t 0 * 1024 + 1 * k.val = k.val; omega)
    (by show win1_1.index t 1 * 512 + 1 * j.val = j.val; omega))
theorem blk2 (c : Dev nD) (t : Fin cfg1.N) (j : Fin 512) :
    blk V c 2 t (ix1 j) = V c main_arg4 (ix1 j) := by
  obtain ⟨-, -, -, -, -, e0, -⟩ := idx t
  exact congrArg (V c main_arg4) (Tile.ix1_of (((cfg1.win 2).blk t).view.emb (ix1 j))
    (by show win1_2.index t 0 * 512 + 1 * j.val = j.val; omega))
theorem blk3 (c : Dev nD) (t : Fin cfg1.N) (b : Fin 4) (s : Fin 8) (ht : t.val = 8 * b.val + s.val) (j i : Fin 512) :
    blk V c 3 t (ix3 (0 : Fin 1) j i) = V c main_v5 (ix3 b j i) := by
  obtain ⟨-, -, -, -, -, -, e0, e1, e2, -⟩ := idx t
  have := s.isLt
  exact congrArg (V c main_v5) (Tile.ix3_of (((cfg1.win 3).blk t).view.emb (ix3 (0 : Fin 1) j i))
    (by show win1_3.index t 0 * 1 + 1 * 0 = b.val; omega)
    (by show win1_3.index t 1 * 512 + 1 * j.val = j.val; omega)
    (by show win1_3.index t 2 * 512 + 1 * i.val = i.val; omega))
theorem blk4 (c : Dev nD) (t : Fin cfg1.N) (i : Fin 512) (k : Fin 1024) :
    blk V c 4 t (ix2 i k) = V c main_v4 (ix2 i k) := by
  obtain ⟨-, -, -, -, -, -, -, -, -, e0, e1, -⟩ := idx t
  exact congrArg (V c main_v4) (Tile.ix2_of (((cfg1.win 4).blk t).view.emb (ix2 i k))
    (by show win1_4.index t 0 * 512 + 1 * i.val = i.val; omega)
    (by show win1_4.index t 1 * 1024 + 1 * k.val = k.val; omega))
theorem blk5 (c : Dev nD) (t : Fin cfg1.N) (k : Fin 1024) :
    blk V c 5 t (ix1 k) = V c main_arg8 (ix1 k) := by
  obtain ⟨-, -, -, -, -, -, -, -, -, -, -, e0, -⟩ := idx t
  exact congrArg (V c main_arg8) (Tile.ix1_of (((cfg1.win 5).blk t).view.emb (ix1 k))
    (by show win1_5.index t 0 * 1024 + 1 * k.val = k.val; omega))

abbrev wyOf (c : Dev nD) : Sx.Idx → EReal :=
  wyArr (V c main_v0) (V c main_v2) (V c main_arg4) (V c main_v5) (V c main_v4) (V c main_arg8)

-- Entry (r, k) of the projected tile at point 8 b + s is entry (b, 512 s + r, k) of the projected array.
theorem wyAt_apply (c : Dev nD) (t : Fin cfg1.N) (b : Fin 4) (s : Fin 8) (ht : t.val = 8 * b.val + s.val) (r : Fin 512) (k : Fin 1024) :
    wyAt V c t (ix2 r k) = wyOf V c (ix3 b (row s r) k) := by
  show k1_pay7 (blk V c 0 t) (blk V c 1 t) (blk V c 2 t) (blk V c 3 t) (blk V c 4 t) (blk V c 5 t) _ = _
  rw [pay7_apply]
  simp only [blk0 V c t b s ht, blk1 V c t, blk2 V c t, blk3 V c t b s ht, blk4 V c t, blk5 V c t]
  rfl

end Cert.KernelIdeal.Proj

end
-- ==== Proof.KI.ProjAcc.lean ====
import proofs.«161341_j29137058136126_1_alg».proof.Proof.KI.ProjTile

noncomputable section

namespace Cert.KernelIdeal.Proj

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

-- Either column accumulator (g the identity, or the square) after a batch's last tile: the batch's column sum of g of the projected array.
theorem acc_last (g : EReal → EReal) (f : (n : ℕ) → n < cfg1.N → Vec Ideal S1x1024 .f32)
    (pay : FVec Ideal S512x1024 .f32 → Vec Ideal S1x1024 .f32 → FVec Ideal S1x1024 .f32) (z : FVec Ideal S1x1024 .f32)
    (hz : ∀ j, z j = 0) (hp : ∀ w a u k, pay w a (ix2 u k) = a (ix2 u k) + ∑ r : Fin 512, g (w (ix2 r k))) (c : Dev nD)
    (h0 : ∀ t : Fin cfg1.N, t.val % 8 = 0 → f t.val t.isLt = pay (wyAt V c t) z)
    (hn : ∀ (t : Fin cfg1.N) (h : ¬t.val % 8 = 0),
      f t.val t.isLt = pay (wyAt V c t) (f (t.val - 1) (Nat.lt_of_le_of_lt (Nat.sub_le _ _) t.isLt)))
    (t : Fin cfg1.N) (q : ℕ) (hq : q < 4) (ht : t.val = 8 * q + 7) (u : Fin 1) (k : Fin 1024) :
    f t.val t.isLt (ix2 u k) = ∑ s : Fin 8, ∑ r : Fin 512, g (wyOf V c (ix3 (⟨q, hq⟩ : Fin 4) (row s r) k)) := by
  have tile : ∀ (p : Fin cfg1.N) (s : Fin 8), p.val = 8 * q + s.val →
      ∑ r : Fin 512, g (wyAt V c p (ix2 r k)) = ∑ r : Fin 512, g (wyOf V c (ix3 (⟨q, hq⟩ : Fin 4) (row s r) k)) :=
    fun p s hp => Finset.sum_congr rfl fun r _ => congrArg g (wyAt_apply V c p ⟨q, hq⟩ s hp r k)
  obtain ⟨n, hn'⟩ := t
  obtain rfl : n = 8 * q + 7 := ht
  refine Tile.fold8 (fun n h => f n h (ix2 u k)) q hn' _ ?_ fun s hs => ?_
  · refine (congrFun (h0 ⟨8 * q, by omega⟩ (by show 8 * q % 8 = 0; omega)) _).trans ((hp _ _ u k).trans ?_)
    rw [hz, zero_add]
    exact tile _ 0 rfl
  · exact (congrFun (hn ⟨8 * q + (s + 1), by omega⟩ (by show ¬(8 * q + (s + 1)) % 8 = 0; omega)) _).trans
      ((hp _ _ u k).trans (congrArg _ (tile _ ⟨s + 1, hs⟩ rfl)))

end Cert.KernelIdeal.Proj

end
-- ==== Proof.KI.ProjValue.lean ====
import proofs.«161341_j29137058136126_1_alg».proof.Proof.KI.ProjAcc

noncomputable section

namespace Cert.KernelIdeal.Proj

open Idealize.ShloMosaic Idealize.ShloMosaic.TcCoe Idealize.ShloMosaic.ValueIdx
open Idealize.ShloMosaic.Pipeline (Dat Cfg Window)
open Cert.KernelIdeal Cert.KernelIdeal.Gen Cert.Spec

variable (V : (c : Dev nD) → (b : Ref sig .tc) → Buf (Elt Ideal) ((c : Thread nD τ).loc b))

-- Every point writes its tile of the projected array: entry (b, n, k) lies in the block of point 8 b + n / 512.
theorem wy_eq (c : Dev nD) :
    (dat (F := Ideal) V c).arrAt 6 cfg1.N
      = Cert.Spec.wyArr (V c main_v0) (V c main_v2) (V c main_arg4) (V c main_v5) (V c main_v4) (V c main_arg8) := by
  refine (dat V c).arrAt_eq_of_cover 6 (wyOf V c) (fun t _ => ?_) fun i => ?_
  · have hlt : t.val < 32 := lt_of_lt_of_eq t.isLt N_1
    obtain ⟨-, -, -, -, -, -, -, -, -, -, -, -, e0, e1, e2, -⟩ := idx t
    show (cfg1.win 6).cut (grid1.coords t) ((dat V c).after 6 t) = _
    rw [after_6]
    funext y
    obtain ⟨u, r, k, rfl⟩ : ∃ (u : Fin 1) (r : Fin 512) (k : Fin 1024), y = ix3 u r k := ⟨y 0, y 1, y 2, eq_ix3 y⟩
    refine ((pay8_apply _ _ _ _ _ _ u r k).trans
      (wyAt_apply V c t ⟨t.val / 8, by omega⟩ ⟨t.val % 8, by omega⟩ (by show t.val = 8 * (t.val / 8) + t.val % 8; omega) r k)).trans ?_
    show wyOf V c _ = wyOf V c (((cfg1.win 6).blk t).view.emb (ix3 u r k))
    refine congrArg _ (Tile.ix3_of _ ?_ ?_ ?_).symm
    · show win1_6.index t 0 * 1 + 1 * u.val = t.val / 8; omega
    · show win1_6.index t 1 * 512 + 1 * r.val = t.val % 8 * 512 + r.val; omega
    · show win1_6.index t 2 * 1024 + 1 * k.val = k.val; omega
  · have h0 : (i 0).val < 4 := (i 0).isLt
    have h1 : (i 1).val < 4096 := (i 1).isLt
    have h2 : (i 2).val < 1024 := (i 2).isLt
    have ht : 8 * (i 0).val + (i 1).val / 512 < cfg1.N := by rw [show cfg1.N = 32 from N_1]; omega
    obtain ⟨-, -, -, -, -, -, -, -, -, -, -, -, e0, e1, e2, -⟩ := idx ⟨_, ht⟩
    simp only at e0 e1 e2
    refine ⟨⟨_, ht⟩, flush1_6 _, ?_⟩
    show i ∈ ((View.whole main_v6_0).slice (win1_6.rect ⟨8 * (i 0).val + (i 1).val / 512, ht⟩)).set
    rw [View.set_slice_whole, Rect.mem_set_unit]
    intro a
    match a with
    | ⟨0, _⟩ => show win1_6.index _ 0 * 1 ≤ (i 0).val ∧ (i 0).val < win1_6.index _ 0 * 1 + 1; omega
    | ⟨1, _⟩ => show win1_6.index _ 1 * 512 ≤ (i 1).val ∧ (i 1).val < win1_6.index _ 1 * 512 + 512; omega
    | ⟨2, _⟩ => show win1_6.index _ 2 * 1024 ≤ (i 2).val ∧ (i 2).val < win1_6.index _ 2 * 1024 + 1024; omega

-- The column sums are written once a batch: entry (b, 0, k) lies in the block written at point 8 b + 7.
theorem sum_eq (c : Dev nD) :
    (dat (F := Ideal) V c).arrAt 7 cfg1.N
      = Cert.Spec.colSumArr (Cert.Spec.wyArr (V c main_v0) (V c main_v2) (V c main_arg4) (V c main_v5) (V c main_v4) (V c main_arg8)) := by
  refine (dat V c).arrAt_eq_of_cover 7 (colSumArr (wyOf V c)) (fun t hf => ?_) fun i => ?_
  · have h7 : t.val % 8 = 7 := (flush1_7 t).mp hf
    have hlt : t.val < 32 := lt_of_lt_of_eq t.isLt N_1
    obtain ⟨-, -, -, -, -, -, -, -, -, -, -, -, -, -, -, e0, e1, e2, -⟩ := idx t
    show (cfg1.win 7).cut (grid1.coords t) ((dat V c).after 7 t) = _
    rw [after_7]
    funext y
    obtain ⟨u, v, k, rfl⟩ : ∃ (u v : Fin 1) (k : Fin 1024), y = ix3 u v k := ⟨y 0, y 1, y 2, eq_ix3 y⟩
    refine ((pay3_apply _ u v k).trans (acc_last V id (acc0At V c) k1_pay1 k1_pay5 pay5_apply pay1_apply c
      (acc0At_first V c) (acc0At_next V c) t (t.val / 8) (by omega) (by omega) v k)).trans ?_
    show colSumArr (wyOf V c) (ix3 (⟨t.val / 8, by omega⟩ : Fin 4) (0 : Fin 1) k) = colSumArr (wyOf V c) (((cfg1.win 7).blk t).view.emb (ix3 u v k))
    refine congrArg _ (Tile.ix3_of _ ?_ ?_ ?_).symm
    · show win1_7.index t 0 * 1 + 1 * u.val = t.val / 8; omega
    · show win1_7.index t 1 * 1 + 1 * v.val = 0; omega
    · show win1_7.index t 2 * 1024 + 1 * k.val = k.val; omega
  · have h0 : (i 0).val < 4 := (i 0).isLt
    have h1 : (i 1).val < 1 := (i 1).isLt
    have h2 : (i 2).val < 1024 := (i 2).isLt
    have ht : 8 * (i 0).val + 7 < cfg1.N := by rw [show cfg1.N = 32 from N_1]; omega
    obtain ⟨-, -, -, -, -, -, -, -, -, -, -, -, -, -, -, e0, e1, e2, -⟩ := idx ⟨_, ht⟩
    simp only at e0 e1 e2
    refine ⟨⟨_, ht⟩, (flush1_7 _).mpr (by show (8 * (i 0).val + 7) % 8 = 7; omega), ?_⟩
    show i ∈ ((View.whole main_v6_1).slice (win1_7.rect ⟨8 * (i 0).val + 7, ht⟩)).set
    rw [View.set_slice_whole, Rect.mem_set_unit]
    intro a
    match a with
    | ⟨0, _⟩ => show win1_7.index _ 0 * 1 ≤ (i 0).val ∧ (i 0).val < win1_7.index _ 0 * 1 + 1; omega
    | ⟨1, _⟩ => show win1_7.index _ 1 * 1 ≤ (i 1).val ∧ (i 1).val < win1_7.index _ 1 * 1 + 1; omega
    | ⟨2, _⟩ => show win1_7.index _ 2 * 1024 ≤ (i 2).val ∧ (i 2).val < win1_7.index _ 2 * 1024 + 1024; omega

theorem sq_eq (c : Dev nD) :
    (dat (F := Ideal) V c).arrAt 8 cfg1.N
      = Cert.Spec.colSqArr (Cert.Spec.wyArr (V c main_v0) (V c main_v2) (V c main_arg4) (V c main_v5) (V c main_v4) (V c main_arg8)) := by
  refine (dat V c).arrAt_eq_of_cover 8 (colSqArr (wyOf V c)) (fun t hf => ?_) fun i => ?_
  · have h7 : t.val % 8 = 7 := (flush1_8 t).mp hf
    have hlt : t.val < 32 := lt_of_lt_of_eq t.isLt N_1
    obtain ⟨-, -, -, -, -, -, -, -, -, -, -, -, -, -, -, -, -, -, e0, e1, e2⟩ := idx t
    show (cfg1.win 8).cut (grid1.coords t) ((dat V c).after 8 t) = _
    rw [after_8]
    funext y
    obtain ⟨u, v, k, rfl⟩ : ∃ (u v : Fin 1) (k : Fin 1024), y = ix3 u v k := ⟨y 0, y 1, y 2, eq_ix3 y⟩
    refine ((pay4_apply _ u v k).trans (acc_last V (fun z => z * z) (acc1At V c) k1_pay2 k1_pay6 pay6_apply pay2_apply c
      (acc1At_first V c) (acc1At_next V c) t (t.val / 8) (by omega) (by omega) v k)).trans ?_
    show colSqArr (wyOf V c) (ix3 (⟨t.val / 8, by omega⟩ : Fin 4) (0 : Fin 1) k) = colSqArr (wyOf V c) (((cfg1.win 8).blk t).view.emb (ix3 u v k))
    refine congrArg _ (Tile.ix3_of _ ?_ ?_ ?_).symm
    · show win1_8.index t 0 * 1 + 1 * u.val = t.val / 8; omega
    · show win1_8.index t 1 * 1 + 1 * v.val = 0; omega
    · show win1_8.index t 2 * 1024 + 1 * k.val = k.val; omega
  · have h0 : (i 0).val < 4 := (i 0).isLt
    have h1 : (i 1).val < 1 := (i 1).isLt
    have h2 : (i 2).val < 1024 := (i 2).isLt
    have ht : 8 * (i 0).val + 7 < cfg1.N := by rw [show cfg1.N = 32 from N_1]; omega
    obtain ⟨-, -, -, -, -, -, -, -, -, -, -, -, -, -, -, -, -, -, e0, e1, e2⟩ := idx ⟨_, ht⟩
    simp only at e0 e1 e2
    refine ⟨⟨_, ht⟩, (flush1_8 _).mpr (by show (8 * (i 0).val + 7) % 8 = 7; omega), ?_⟩
    show i ∈ ((View.whole main_v6_2).slice (win1_8.rect ⟨8 * (i 0).val + 7, ht⟩)).set
    rw [View.set_slice_whole, Rect.mem_set_unit]
    intro a
    match a with
    | ⟨0, _⟩ => show win1_8.index _ 0 * 1 ≤ (i 0).val ∧ (i 0).val < win1_8.index _ 0 * 1 + 1; omega
    | ⟨1, _⟩ => show win1_8.index _ 1 * 1 ≤ (i 1).val ∧ (i 1).val < win1_8.index _ 1 * 1 + 1; omega
    | ⟨2, _⟩ => show win1_8.index _ 2 * 1024 ≤ (i 2).val ∧ (i 2).val < win1_8.index _ 2 * 1024 + 1024; omega

end Cert.KernelIdeal.Proj

end
-- ==== Proof.KI.NormPay.lean ====
import proofs.«161341_j29137058136126_1_alg».proof.Proof.Gen.KernelIdeal.Skeleton
import proofs.«161341_j29137058136126_1_alg».proof.Proof.Stages
import Idealize.ShloMosaic.Lib.ValueLayout

noncomputable section

namespace Cert.KernelIdeal.Norm

open Idealize.ShloMosaic Idealize.ShloMosaic.ValueIdx
open Cert.KernelIdeal Cert.KernelIdeal.Gen

-- A per-channel vector repeated down the rows reads its channel's entry.
theorem rows_apply (v : Vec Ideal S1024 .f32) (r : Fin 512) (k : Fin 1024) :
    broadcastTo S512x1024 (shapeCast S1x1024 v shapeCasts_S1024_S1x1024) broadcasts_S1x1024_S512x1024 (ix2 r k) = v (ix1 k) :=
  (broadcastTo_1b_ab_apply _ _ r k).trans (shapeCast_a_1a_apply v _ 0 k)

theorem pay_apply (v0 : Vec Ideal S1x512x1024 .bf16) (v3 : Vec Ideal S1x512x1024 .f32) (v5 v10 v18 v22 : Vec Ideal S1024 .f32)
    (u : Fin 1) (r : Fin 512) (k : Fin 1024) :
    k2_pay1 (F := Ideal) v0 v3 v5 v10 v18 v22 (ix3 u r k)
      = (v0 (ix3 (0 : Fin 1) r k) - v10 (ix1 k)) * Ideal.rsqrt (v5 (ix1 k) + Cert.Spec.cEps) * v18 (ix1 k) + v22 (ix1 k)
          + v3 (ix3 (0 : Fin 1) r k) := by
  unfold k2_pay1
  refine (shapeCast_ab_1ab_apply _ _ u r k).trans ?_
  rw [addf_apply, addf_apply, mulf_apply, mulf_apply, subf_apply, extf_apply,
    rows_apply, rows_apply, rows_apply, rows_apply,
    shapeCast_1ab_ab_apply, shapeCast_1ab_ab_apply, shapeCast_self, shapeCast_self]
  rfl

end Cert.KernelIdeal.Norm

end
-- ==== Proof.KI.NormValue.lean ====
import proofs.«161341_j29137058136126_1_alg».proof.Proof.KI.NormFrame
import proofs.«161341_j29137058136126_1_alg».proof.Proof.KI.NormPay
import proofs.«161341_j29137058136126_1_alg».proof.Proof.KI.GramPay
import proofs.«161341_j29137058136126_1_alg».proof.Proof.Stages
import Idealize.ShloMosaic.Lib.Pipeline.Value

noncomputable section

namespace Cert.KernelIdeal.Norm

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem idx : ∀ t : Fin cfg2.N,
    win2_6.index t 0 = t.val / 8 ∧ win2_6.index t 1 = t.val % 8 ∧ win2_6.index t 2 = 0
    ∧ win2_0.index t 0 = t.val / 8 ∧ win2_0.index t 1 = t.val % 8 ∧ win2_0.index t 2 = 0
    ∧ win2_1.index t 0 = t.val / 8 ∧ win2_1.index t 1 = t.val % 8 ∧ win2_1.index t 2 = 0
    ∧ win2_2.index t 0 = 0 ∧ win2_3.index t 0 = 0 ∧ win2_4.index t 0 = 0 ∧ win2_5.index t 0 = 0 :=
  (by decide +kernel : ∀ t : Fin grid2.N, _)

-- At point t every tiled block is rows 512 (t % 8) .. 512 (t % 8) + 511 of batch t / 8 and the four per-channel blocks are whole
-- vectors; entry (b, n, k) lies in the tile of point 8 b + n / 512.
theorem array_eq (c : Dev nD) :
    (dat (F := Ideal) V c).arrAt 6 cfg2.N = Cert.Spec.normArr (V c main_v6_0) (V c main_v0) (V c main_v12) (V c main_v16) (V c main_arg9) (V c main_arg10) := by
  refine (dat (F := Ideal) V c).arrAt_eq_of_cover 6 _ (fun t _ => ?_) fun i => ?_
  · have hlt : t.val < 32 := lt_of_lt_of_eq t.isLt N_2
    obtain ⟨e60, e61, e62, e00, e01, e02, e10, e11, e12, e2, e3, e4, e5⟩ := idx t
    show (cfg2.win 6).cut (grid2.coords t) ((dat (F := Ideal) V c).after 6 t) = _
    rw [after_6]
    funext y
    obtain ⟨u, r, k, rfl⟩ : ∃ (u : Fin 1) (r : Fin 512) (k : Fin 1024), y = ix3 u r k := ⟨y 0, y 1, y 2, eq_ix3 y⟩
    have h6 : ((cfg2.win 6).blk t).view.emb (ix3 u r k) = ix3 (⟨t.val / 8, by omega⟩ : Fin 4) (row ⟨t.val % 8, by omega⟩ r) k :=
      Tile.ix3_of _ (by show win2_6.index t 0 * 1 + 1 * u.val = t.val / 8; omega)
        (by show win2_6.index t 1 * 512 + 1 * r.val = t.val % 8 * 512 + r.val; omega)
        (by show win2_6.index t 2 * 1024 + 1 * k.val = k.val; omega)
    have h0 : blk V c 0 t (ix3 (0 : Fin 1) r k) = V c main_v6_0 (ix3 (⟨t.val / 8, by omega⟩ : Fin 4) (row ⟨t.val % 8, by omega⟩ r) k) :=
      congrArg (V c main_v6_0) (Tile.ix3_of (((cfg2.win 0).blk t).view.emb (ix3 (0 : Fin 1) r k))
        (by show win2_0.index t 0 * 1 + 1 * 0 = t.val / 8; omega)
        (by show win2_0.index t 1 * 512 + 1 * r.val = t.val % 8 * 512 + r.val; omega)
        (by show win2_0.index t 2 * 1024 + 1 * k.val = k.val; omega))
    have h1 : blk V c 1 t (ix3 (0 : Fin 1) r k) = V c main_v0 (ix3 (⟨t.val / 8, by omega⟩ : Fin 4) (row ⟨t.val % 8, by omega⟩ r) k) :=
      congrArg (V c main_v0) (Tile.ix3_of (((cfg2.win 1).blk t).view.emb (ix3 (0 : Fin 1) r k))
        (by show win2_1.index t 0 * 1 + 1 * 0 = t.val / 8; omega)
        (by show win2_1.index t 1 * 512 + 1 * r.val = t.val % 8 * 512 + r.val; omega)
        (by show win2_1.index t 2 * 1024 + 1 * k.val = k.val; omega))
    have h2 : blk V c 2 t (ix1 k) = V c main_v12 (ix1 k) :=
      congrArg (V c main_v12) (Tile.ix1_of (((cfg2.win 2).blk t).view.emb (ix1 k)) (by show win2_2.index t 0 * 1024 + 1 * k.val = k.val; omega))
    have h3 : blk V c 3 t (ix1 k) = V c main_v16 (ix1 k) :=
      congrArg (V c main_v16) (Tile.ix1_of (((cfg2.win 3).blk t).view.emb (ix1 k)) (by show win2_3.index t 0 * 1024 + 1 * k.val = k.val; omega))
    have h4 : blk V c 4 t (ix1 k) = V c main_arg9 (ix1 k) :=
      congrArg (V c main_arg9) (Tile.ix1_of (((cfg2.win 4).blk t).view.emb (ix1 k)) (by show win2_4.index t 0 * 1024 + 1 * k.val = k.val; omega))
    have h5 : blk V c 5 t (ix1 k) = V c main_arg10 (ix1 k) :=
      congrArg (V c main_arg10) (Tile.ix1_of (((cfg2.win 5).blk t).view.emb (ix1 k)) (by show win2_5.index t 0 * 1024 + 1 * k.val = k.val; omega))
    refine (pay_apply (blk V c 0 t) (blk V c 1 t) (blk V c 3 t) (blk V c 2 t) (blk V c 4 t) (blk V c 5 t) u r k).trans ?_
    rw [h0, h1, h2, h3, h4, h5]
    show _ = normArr _ _ _ _ _ _ (((cfg2.win 6).blk t).view.emb (ix3 u r k))
    rw [h6]
    rfl
  · have h0 : (i 0).val < 4 := (i 0).isLt
    have h1 : (i 1).val < 4096 := (i 1).isLt
    have h2 : (i 2).val < 1024 := (i 2).isLt
    have ht : 8 * (i 0).val + (i 1).val / 512 < cfg2.N := by rw [show cfg2.N = 32 from N_2]; omega
    obtain ⟨e0, e1, e2, -⟩ := idx ⟨_, ht⟩
    simp only at e0 e1 e2
    refine ⟨⟨_, ht⟩, flush2_6 _, ?_⟩
    show i ∈ ((View.whole main_v17).slice (win2_6.rect ⟨8 * (i 0).val + (i 1).val / 512, ht⟩)).set
    rw [View.set_slice_whole, Rect.mem_set_unit]
    intro a
    match a with
    | ⟨0, _⟩ => show win2_6.index _ 0 * 1 ≤ (i 0).val ∧ (i 0).val < win2_6.index _ 0 * 1 + 1; omega
    | ⟨1, _⟩ => show win2_6.index _ 1 * 512 ≤ (i 1).val ∧ (i 1).val < win2_6.index _ 1 * 512 + 512; omega
    | ⟨2, _⟩ => show win2_6.index _ 2 * 1024 ≤ (i 2).val ∧ (i 2).val < win2_6.index _ 2 * 1024 + 1024; omega

end Cert.KernelIdeal.Norm

end
-- ==== Proof.KI.ResultMath.lean ====
import proofs.«161341_j29137058136126_1_alg».proof.Proof.Stages

noncomputable section

open scoped BigOperators

namespace Cert.Spec

open Idealize.ShloMosaic Idealize.ShloMosaic.ValueIdx

def dropUnit (a0 : Sv.Idx → EReal) : Sx.Idx → EReal := fun j => a0 (ix4 (j 0) (0 : Fin 1) (j 1) (j 2))

def trIC (a : Sic.Idx → EReal) : Sci.Idx → EReal := fun j => a (ix2 (j 1) (j 0))

def trCI (a : Sci.Idx → EReal) : Sic.Idx → EReal := fun j => a (ix2 (j 1) (j 0))

def meanArr (s : Ss.Idx → EReal) : Sc.Idx → EReal := fun j => Ideal.div (∑ b : B, s (ix3 b (0 : Fin 1) (j 0))) c16384

def varArr (s q : Ss.Idx → EReal) : Sc.Idx → EReal := fun j => meanArr q j - meanArr s j * meanArr s j

def addUnit (o : Sx.Idx → EReal) : Sv.Idx → EReal := fun j => o (ix3 (j 0) (j 2) (j 3))

variable (a0 : Sv.Idx → EReal) (a1 : Sic.Idx → EReal) (a2 : Si.Idx → EReal) (a3 : Sic.Idx → EReal) (a4 : Si.Idx → EReal)
  (a5 : Sic.Idx → EReal) (a6 : Si.Idx → EReal) (a7 : Sci.Idx → EReal) (a8 : Sc.Idx → EReal) (a9 : Sc.Idx → EReal)
  (a10 : Sc.Idx → EReal)

def gramOf : Sm.Idx → EReal := gramArr (dropUnit a0) (trIC a1) a2 (trIC a5) a6

def wyOf : Sx.Idx → EReal := wyArr (dropUnit a0) (trIC a3) a4 (gramOf a0 a1 a2 a5 a6) (trCI a7) a8

def kernelArr : Sv.Idx → EReal :=
  addUnit (normArr (wyOf a0 a1 a2 a3 a4 a5 a6 a7 a8) (dropUnit a0) (meanArr (colSumArr (wyOf a0 a1 a2 a3 a4 a5 a6 a7 a8)))
    (varArr (colSumArr (wyOf a0 a1 a2 a3 a4 a5 a6 a7 a8)) (colSqArr (wyOf a0 a1 a2 a3 a4 a5 a6 a7 a8))) a9 a10)

-- Read at an index, each stage is its line of the specification, a transposed matrix being read as wT[k,i] = w[i,k].
theorem kernelArr_eq : kernelArr a0 a1 a2 a3 a4 a5 a6 a7 a8 a9 a10 = asArray (outK (inputsOf a0 a1 a2 a3 a4 a5 a6 a7 a8 a9 a10)) :=
  funext fun _ => rfl

end Cert.Spec

end
-- ==== Proof.KI.HostBefore.lean ====
import proofs.«161341_j29137058136126_1_alg».proof.Proof.Gen.KernelIdeal.Launch
import proofs.«161341_j29137058136126_1_alg».proof.Proof.KI.ResultMath
import Idealize.ShloMosaic.Lib.Pipeline.Value

noncomputable section

open scoped BigOperators

namespace Cert.KernelIdeal.Whole.Res
open Idealize.ShloMosaic Idealize.ShloMosaic.TcCoe Idealize.ShloMosaic.ValueIdx
open Cert.KernelIdeal Cert.KernelIdeal.Gen

-- A unit axis adds nothing to the flattened index: ((b·1 + 0)·4096 + n)·1024 + c = (b·4096 + n)·1024 + c.
theorem dropUnit_apply {α : Type} (x : Cert.Spec.Sv.Idx → α) (h : Cert.Spec.Sv.ShapeCasts Cert.Spec.Sx) (j : Cert.Spec.Sx.Idx) :
    shapeCast Cert.Spec.Sx x h j = x (ix4 (j 0) (0 : Fin 1) (j 1) (j 2)) :=
  shapeCast_apply x h j _ (by
    rw [Shape.rowMajor_val_four, Shape.rowMajor_val_three]
    show (((j 0).val * 1 + 0) * 4096 + (j 1).val) * 1024 + (j 2).val = ((j 0).val * 4096 + (j 1).val) * 1024 + (j 2).val
    rw [Nat.mul_one, Nat.add_zero])

theorem tr_apply {α : Type} {a b : ℕ} (x : (⟨2, ![a, b]⟩ : Shape).Idx → α)
    (h : (⟨2, ![a, b]⟩ : Shape).Transposes [1, 0] ⟨2, ![b, a]⟩) (j : (⟨2, ![b, a]⟩ : Shape).Idx) :
    transpose ⟨2, ![b, a]⟩ [1, 0] x h j = x (ix2 (j 1) (j 0)) :=
  transpose_apply _ x h _ _ fun c => match c with | ⟨0, _⟩ => rfl | ⟨1, _⟩ => rfl

variable (w : Valuation τ sig (Elt Ideal))

theorem before_v0 :
    (StableHlo.after (hostOps0 (F := Ideal)) w (Proc.devRef .tc main_v0) : Cert.Spec.Sx.Idx → EReal)
      = Cert.Spec.dropUnit (w (Proc.devRef .tc main_arg0)) := by
  after_results
  exact funext (dropUnit_apply _ _)

theorem before_v1 :
    (StableHlo.after (hostOps0 (F := Ideal)) w (Proc.devRef .tc main_v1) : Cert.Spec.Sci.Idx → EReal)
      = Cert.Spec.trIC (w (Proc.devRef .tc main_arg1)) := by
  after_results
  exact funext (tr_apply _ _)

theorem before_v2 :
    (StableHlo.after (hostOps0 (F := Ideal)) w (Proc.devRef .tc main_v2) : Cert.Spec.Sci.Idx → EReal)
      = Cert.Spec.trIC (w (Proc.devRef .tc main_arg3)) := by
  after_results
  exact funext (tr_apply _ _)

theorem before_v3 :
    (StableHlo.after (hostOps0 (F := Ideal)) w (Proc.devRef .tc main_v3) : Cert.Spec.Sci.Idx → EReal)
      = Cert.Spec.trIC (w (Proc.devRef .tc main_arg5)) := by
  after_results
  exact funext (tr_apply _ _)

theorem before_v4 :
    (StableHlo.after (hostOps0 (F := Ideal)) w (Proc.devRef .tc main_v4) : Cert.Spec.Sic.Idx → EReal)
      = Cert.Spec.trCI (w (Proc.devRef .tc main_arg7)) := by
  after_results
  exact funext (tr_apply _ _)

end Cert.KernelIdeal.Whole.Res

end
-- ==== Proof.KI.HostMoments.lean ====
import proofs.«161341_j29137058136126_1_alg».proof.Proof.Gen.KernelIdeal.Launch
import proofs.«161341_j29137058136126_1_alg».proof.Proof.KI.ResultMath
import Idealize.ShloMosaic.Lib.Pipeline.Value
import Idealize.ShloMosaic.Lib.IdealHost

noncomputable section

open scoped BigOperators

namespace Cert.KernelIdeal.Whole.Res
open Idealize.ShloMosaic Idealize.ShloMosaic.TcCoe Idealize.ShloMosaic.ValueIdx
open Cert.KernelIdeal Cert.KernelIdeal.Gen

theorem dropUnit3_apply {α : Type} (x : Cert.Spec.Ss.Idx → α) (h : Cert.Spec.Ss.ShapeCasts S4x1024) (b : Fin 4) (c : Fin 1024) :
    shapeCast S4x1024 x h (ix2 b c) = x (ix3 b (0 : Fin 1) c) :=
  shapeCast_apply x h _ _ (by
    rw [Shape.rowMajor_val_three, Shape.rowMajor_val_two]
    show (b.val * 1 + 0) * 1024 + c.val = b.val * 1024 + c.val
    rw [Nat.mul_one, Nat.add_zero])

-- The sum over the batch axis of a [4,1024] array, from an initial scalar: init + Σ_b x[b,c].
theorem reduceBatch_apply (x : FVec Ideal S4x1024 .f32) (init : FVec Ideal S_ .f32) (h' : S4x1024.ReducesTo [0] S1024)
    (hu : 0 < S_.numel) (c : Fin 1024) :
    Host.reduceAdd (F := Ideal) x init h' hu (ix1 c) = init ix0 + ∑ b : Fin 4, x (ix2 b c) := by
  have h : S4x1024.Reduces [0] S1024 := by decide
  rw [hostReduceAdd_apply, Ideal.hostReduceAdd_single h' h]
  congr 1
  · exact congrArg init (eq_ix0 _)
  · exact Finset.sum_congr rfl fun b _ => congrArg x (funext fun a => match a with | ⟨0, _⟩ => rfl | ⟨1, _⟩ => rfl)

-- The per-batch column sums added over the batches, from zero, and divided by 16384: the column means.
abbrev meanHost (s : Cert.Spec.Ss.Idx → EReal) (hc : Cert.Spec.Ss.ShapeCasts S4x1024) (h' : S4x1024.ReducesTo [0] S1024)
    (hu : 0 < S_.numel) (hb : S_.BroadcastsInDim S1024 (![] : Fin 0 → Fin S1024.rank)) : FVec Ideal S1024 .f32 :=
  Host.divf (F := Ideal)
    (Host.reduceAdd (F := Ideal) (fun i => shapeCast S4x1024 s hc i) (constant (F := Ideal) S_ .f32 0x00000000#32) h' hu)
    (broadcastInDim S1024 ![] hb (constant (F := Ideal) S_ .f32 0x46800000#32))

theorem meanOf_apply (s : Cert.Spec.Ss.Idx → EReal) (hc : Cert.Spec.Ss.ShapeCasts S4x1024) (h' : S4x1024.ReducesTo [0] S1024)
    (hu : 0 < S_.numel) (hb : S_.BroadcastsInDim S1024 (![] : Fin 0 → Fin S1024.rank)) :
    meanHost s hc h' hu hb = Cert.Spec.meanArr s := by
  funext j
  obtain ⟨c, rfl⟩ : ∃ c : Fin 1024, j = ix1 c := ⟨j 0, eq_ix1 j⟩
  unfold meanHost
  rw [hostDivf_apply, reduceBatch_apply, broadcastInDim_scalar_apply]
  simp only [dropUnit3_apply]
  show Ideal.div (Ideal.ofBits .f32 0x00000000#32 + ∑ b : Fin 4, s (ix3 b (0 : Fin 1) c)) (Ideal.ofBits .f32 0x46800000#32)
      = Ideal.div (∑ b : Fin 4, s (ix3 b (0 : Fin 1) c)) Cert.Spec.c16384
  rw [Ideal.ofBits_zero_f32, zero_add]

-- The variance is the mean of the squares less the square of the mean.
theorem varOf_apply (s q : Cert.Spec.Ss.Idx → EReal) (hc : Cert.Spec.Ss.ShapeCasts S4x1024) (h' : S4x1024.ReducesTo [0] S1024)
    (hu : 0 < S_.numel) (hb : S_.BroadcastsInDim S1024 (![] : Fin 0 → Fin S1024.rank)) :
    subf (F := Ideal) (meanHost q hc h' hu hb) (mulf (F := Ideal) (meanHost s hc h' hu hb) (meanHost s hc h' hu hb))
      = Cert.Spec.varArr s q := by
  rw [meanOf_apply s hc h' hu hb, meanOf_apply q hc h' hu hb]
  rfl

variable (w : Valuation τ sig (Elt Ideal))

theorem moments_v12 :
    (StableHlo.after (hostOps2 (F := Ideal)) w (Proc.devRef .tc main_v12) : Cert.Spec.Sc.Idx → EReal)
      = Cert.Spec.meanArr (w (Proc.devRef .tc main_v6_1)) := by
  after_results
  exact meanOf_apply _ _ _ _ _

theorem moments_v16 :
    (StableHlo.after (hostOps2 (F := Ideal)) w (Proc.devRef .tc main_v16) : Cert.Spec.Sc.Idx → EReal)
      = Cert.Spec.varArr (w (Proc.devRef .tc main_v6_1)) (w (Proc.devRef .tc main_v6_2)) := by
  after_results
  exact varOf_apply _ _ _ _ _ _

end Cert.KernelIdeal.Whole.Res

end
-- ==== Proof.KI.HostAfter.lean ====
import proofs.«161341_j29137058136126_1_alg».proof.Proof.Gen.KernelIdeal.Launch
import proofs.«161341_j29137058136126_1_alg».proof.Proof.KI.ResultMath
import Idealize.ShloMosaic.Lib.Pipeline.Value

noncomputable section

open scoped BigOperators

namespace Cert.KernelIdeal.Whole.Res
open Idealize.ShloMosaic Idealize.ShloMosaic.TcCoe Idealize.ShloMosaic.ValueIdx
open Cert.KernelIdeal Cert.KernelIdeal.Gen

variable (w : Valuation τ sig (Elt Ideal))

theorem addUnit_apply {α : Type} (x : Cert.Spec.Sx.Idx → α) (h : Cert.Spec.Sx.ShapeCasts Cert.Spec.Sv) (j : Cert.Spec.Sv.Idx) :
    shapeCast Cert.Spec.Sv x h j = x (ix3 (j 0) (j 2) (j 3)) :=
  shapeCast_apply x h j _ (by
    have hu : (j 1).val = 0 := by have h1 : (j 1).val < 1 := (j 1).isLt; omega
    rw [Shape.rowMajor_val_four, Shape.rowMajor_val_three]
    show ((j 0).val * 4096 + (j 2).val) * 1024 + (j 3).val = (((j 0).val * 1 + (j 1).val) * 4096 + (j 2).val) * 1024 + (j 3).val
    rw [hu, Nat.mul_one, Nat.add_zero])

theorem after_v18 :
    (StableHlo.after (hostOps3 (F := Ideal)) w (Proc.devRef .tc main_v18) : Cert.Spec.Sv.Idx → EReal)
      = Cert.Spec.addUnit (w (Proc.devRef .tc main_v17)) := by
  after_results
  exact funext (addUnit_apply _ _)

end Cert.KernelIdeal.Whole.Res

end
-- ==== Proof.KI.Result.lean ====
import proofs.«161341_j29137058136126_1_alg».proof.Proof.KI.Launch
import proofs.«161341_j29137058136126_1_alg».proof.Proof.KI.GramValue
import proofs.«161341_j29137058136126_1_alg».proof.Proof.KI.ProjValue
import proofs.«161341_j29137058136126_1_alg».proof.Proof.KI.NormValue
import proofs.«161341_j29137058136126_1_alg».proof.Proof.KI.HostBefore
import proofs.«161341_j29137058136126_1_alg».proof.Proof.KI.HostMoments
import proofs.«161341_j29137058136126_1_alg».proof.Proof.KI.HostAfter

noncomputable section

open scoped BigOperators

namespace Cert.KernelIdeal.Whole
open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg) (c : Dev nD)

namespace Res

-- The argument array at `r`.
abbrev arg (r : Ref sig .tc) : Buf (Elt Ideal) ((c : Thread nD τ).loc r) := m ((c : Thread nD τ).loc r)

theorem W1_v0 : (V1 m ρ c main_v0 : Cert.Spec.Sx.Idx → EReal) = Cert.Spec.dropUnit (arg m c main_arg0) := before_v0 (W0 m ρ c)
theorem W1_v1 : (V1 m ρ c main_v1 : Cert.Spec.Sci.Idx → EReal) = Cert.Spec.trIC (arg m c main_arg1) := before_v1 (W0 m ρ c)
theorem W1_v2 : (V1 m ρ c main_v2 : Cert.Spec.Sci.Idx → EReal) = Cert.Spec.trIC (arg m c main_arg3) := before_v2 (W0 m ρ c)
theorem W1_v3 : (V1 m ρ c main_v3 : Cert.Spec.Sci.Idx → EReal) = Cert.Spec.trIC (arg m c main_arg5) := before_v3 (W0 m ρ c)
theorem W1_v4 : (V1 m ρ c main_v4 : Cert.Spec.Sic.Idx → EReal) = Cert.Spec.trCI (arg m c main_arg7) := before_v4 (W0 m ρ c)

theorem W1_keep (r : Ref sig .tc) (h : r ∉ hostOps0_W) : V1 m ρ c r = arg m c r :=
  StableHlo.after_of_writes_sub hostOps0 _ hostOps0_writes h

-- After the first stage: the scaled phi^T g matrices of the arguments.
theorem W2_v5 : (V2 m ρ c main_v5 : Cert.Spec.Sm.Idx → EReal) = Cert.Spec.gramOf (arg m c main_arg0) (arg m c main_arg1) (arg m c main_arg2) (arg m c main_arg5) (arg m c main_arg6) := by
  refine (W2_arr m ρ c 5).trans ((Gram.array_eq (V1 m ρ) c).trans ?_)
  rw [W1_v0, W1_v1, W1_v3, W1_keep m ρ c main_arg2 (by decide), W1_keep m ρ c main_arg6 (by decide)]
  rfl

-- An array a stage only reads leaves it as it entered it.
theorem W2_v0 : (V2 m ρ c main_v0 : Cert.Spec.Sx.Idx → EReal) = Cert.Spec.dropUnit (arg m c main_arg0) :=
  (W2_arr m ρ c 0).trans (((Gram.dat (V1 m ρ) c).arrAt_in 0 rfl _).trans ((Gram.A_eq (V1 m ρ) c 0).trans (W1_v0 m ρ c)))
theorem W2_v2 : (V2 m ρ c main_v2 : Cert.Spec.Sci.Idx → EReal) = Cert.Spec.trIC (arg m c main_arg3) :=
  (W2_of_ne m ρ c main_v2 (by decide)).trans (W1_v2 m ρ c)
theorem W2_v4 : (V2 m ρ c main_v4 : Cert.Spec.Sic.Idx → EReal) = Cert.Spec.trCI (arg m c main_arg7) :=
  (W2_of_ne m ρ c main_v4 (by decide)).trans (W1_v4 m ρ c)

-- An array that no earlier step writes is still the argument array.
theorem W2_keep (r : Ref sig .tc) (h0 : r ∉ hostOps0_W) (h1 : ∀ w, Pipeline.arrRef spec0 w ≠ r) : V2 m ρ c r = arg m c r :=
  (W2_of_ne m ρ c r h1).trans (W1_keep m ρ c r h0)

abbrev wyM : Cert.Spec.Sx.Idx → EReal := Cert.Spec.wyOf (arg m c main_arg0) (arg m c main_arg1) (arg m c main_arg2) (arg m c main_arg3) (arg m c main_arg4) (arg m c main_arg5) (arg m c main_arg6) (arg m c main_arg7) (arg m c main_arg8)

-- The second stage's operands, in terms of the arguments.
theorem wy_entry :
    Cert.Spec.wyArr (V2 m ρ c main_v0) (V2 m ρ c main_v2) (V2 m ρ c main_arg4) (V2 m ρ c main_v5) (V2 m ρ c main_v4) (V2 m ρ c main_arg8)
      = wyM m c := by
  rw [W2_v0, W2_v2, W2_v5, W2_v4, W2_keep m ρ c main_arg4 (by decide) (by decide), W2_keep m ρ c main_arg8 (by decide) (by decide)]
  rfl

theorem W3_v6_0 : (W3 m ρ c (Proc.devRef .tc main_v6_0) : Cert.Spec.Sx.Idx → EReal) = wyM m c :=
  (W3_arr m ρ c 6).trans ((Proj.wy_eq (V2 m ρ) c).trans (wy_entry m ρ c))
theorem W3_v6_1 : (W3 m ρ c (Proc.devRef .tc main_v6_1) : Cert.Spec.Ss.Idx → EReal) = Cert.Spec.colSumArr (wyM m c) :=
  (W3_arr m ρ c 7).trans ((Proj.sum_eq (V2 m ρ) c).trans (congrArg Cert.Spec.colSumArr (wy_entry m ρ c)))
theorem W3_v6_2 : (W3 m ρ c (Proc.devRef .tc main_v6_2) : Cert.Spec.Ss.Idx → EReal) = Cert.Spec.colSqArr (wyM m c) :=
  (W3_arr m ρ c 8).trans ((Proj.sq_eq (V2 m ρ) c).trans (congrArg Cert.Spec.colSqArr (wy_entry m ρ c)))

theorem W3_v0 : (W3 m ρ c (Proc.devRef .tc main_v0) : Cert.Spec.Sx.Idx → EReal) = Cert.Spec.dropUnit (arg m c main_arg0) :=
  (W3_arr m ρ c 0).trans (((Proj.dat (V2 m ρ) c).arrAt_in 0 rfl _).trans ((Proj.A_eq (V2 m ρ) c 0).trans (W2_v0 m ρ c)))

theorem W3_keep (r : Ref sig .tc) (h0 : r ∉ hostOps0_W) (h1 : ∀ w, Pipeline.arrRef spec0 w ≠ r) (h2 : ∀ w, Pipeline.arrRef spec1 w ≠ r) :
    W3 m ρ c (Proc.devRef .tc r) = arg m c r :=
  (W3_of_ne m ρ c r h2).trans (W2_keep m ρ c r h0 h1)

theorem W4_keep (r : Ref sig .tc) (h : r ∉ hostOps2_W) : V4 m ρ c r = W3 m ρ c (Proc.devRef .tc r) :=
  StableHlo.after_of_writes_sub hostOps2 _ hostOps2_writes h

theorem W4_v12 : (V4 m ρ c main_v12 : Cert.Spec.Sc.Idx → EReal) = Cert.Spec.meanArr (Cert.Spec.colSumArr (wyM m c)) :=
  (moments_v12 (W3 m ρ c)).trans (congrArg Cert.Spec.meanArr (W3_v6_1 m ρ c))
theorem W4_v16 : (V4 m ρ c main_v16 : Cert.Spec.Sc.Idx → EReal)
    = Cert.Spec.varArr (Cert.Spec.colSumArr (wyM m c)) (Cert.Spec.colSqArr (wyM m c)) :=
  (moments_v16 (W3 m ρ c)).trans (congrArg₂ Cert.Spec.varArr (W3_v6_1 m ρ c) (W3_v6_2 m ρ c))

-- The third stage normalises the projected array with these means and variances and adds the residual.
theorem W5_v17 : (W5 m ρ c (Proc.devRef .tc main_v17) : Cert.Spec.Sx.Idx → EReal)
    = Cert.Spec.normArr (wyM m c) (Cert.Spec.dropUnit (arg m c main_arg0))
        (Cert.Spec.meanArr (Cert.Spec.colSumArr (wyM m c))) (Cert.Spec.varArr (Cert.Spec.colSumArr (wyM m c)) (Cert.Spec.colSqArr (wyM m c)))
        (arg m c main_arg9) (arg m c main_arg10) := by
  refine (W5_arr m ρ c 6).trans ((Norm.array_eq (V4 m ρ) c).trans ?_)
  rw [W4_v12, W4_v16, W4_keep m ρ c main_v6_0 (by decide), W4_keep m ρ c main_v0 (by decide),
    W4_keep m ρ c main_arg9 (by decide), W4_keep m ρ c main_arg10 (by decide),
    W3_v6_0, W3_v0, W3_keep m ρ c main_arg9 (by decide) (by decide) (by decide),
    W3_keep m ρ c main_arg10 (by decide) (by decide) (by decide)]

end Res

-- Core c's eleven argument arrays, as the specification takes them.
abbrev ins := Cert.Spec.inputsOf (Res.arg m c main_arg0) (Res.arg m c main_arg1) (Res.arg m c main_arg2) (Res.arg m c main_arg3) (Res.arg m c main_arg4)
  (Res.arg m c main_arg5) (Res.arg m c main_arg6) (Res.arg m c main_arg7) (Res.arg m c main_arg8) (Res.arg m c main_arg9) (Res.arg m c main_arg10)

-- With the unit axis put back, the composed stages are the specification's kernel-side result.
theorem result_eq : W6 (F := Ideal) m ρ c (Proc.devRef .tc main_v18) = Cert.Spec.asArray (Cert.Spec.outK (ins m c)) :=
  ((Res.after_v18 (W5 m ρ c)).trans (congrArg Cert.Spec.addUnit (Res.W5_v17 m ρ c))).trans
    (Cert.Spec.kernelArr_eq _ _ _ _ _ _ _ _ _ _ _)

end Cert.KernelIdeal.Whole

end
-- ==== Proof.RefTerm.lean ====
import proofs.«161341_j29137058136126_1_alg».proof.Proof.Gen.ReferenceIdeal
import Idealize.ShloMosaic.PureOps.Ideal

noncomputable section

namespace Cert.ReferenceIdeal.Hand

open Cert.ReferenceIdeal Cert.ReferenceIdeal.Gen Idealize.ShloMosaic

abbrev Av := FVec Ideal S4x1x4096x1024 .f32
abbrev Aic := FVec Ideal S512x1024 .f32
abbrev Ai := FVec Ideal S512 .f32
abbrev Aci := FVec Ideal S1024x512 .f32
abbrev Ac := FVec Ideal S1024 .f32
abbrev Af := FVec Ideal S4x1x4096x512 .f32
abbrev Arow := FVec Ideal S1x1x1x1024 .f32

-- an affine map of the channels into 512 features
def aff (v : Av) (w : Aic) (b : Ai) : Af :=
  addf (F := Ideal)
    (Host.dotGeneral (F := Ideal) dot_S4x1x4096x1024_S512x1024_S4x1x4096x512_3_1_012_0_n_n none v w)
    (broadcastInDim S4x1x4096x512 ![0, 1, 2, 3] bcast_S1x1x1x512_S4x1x4096x512_0_1_2_3
      (broadcastInDim S1x1x1x512 ![3] bcast_S512_S1x1x1x512_3 b))

def n4096 : FVec Ideal S4x1x4096x4096 .f32 :=
  broadcastInDim S4x1x4096x4096 ![] bcast_S_S4x1x4096x4096 (constant (F := Ideal) S_ .f32 0x45800000#32)

-- the pairwise weights: theta against phi per batch, over 4096
def v14 (th ph : Af) : FVec Ideal S4x1x4096x4096 .f32 :=
  Host.divf (F := Ideal)
    (Host.dotGeneral (F := Ideal) dot_S4x1x4096x512_S4x1x4096x512_S4x1x4096x4096_3_3_2_2_01_01 none th ph) n4096

def v15 (th ph g : Af) : Af :=
  Host.dotGeneral (F := Ideal) dot_S4x1x4096x4096_S4x1x4096x512_S4x1x4096x512_3_2_2_3_01_01 none (v14 th ph) g

def asRow (x : Ac) : Arow := broadcastInDim S1x1x1x1024 ![3] bcast_S1024_S1x1x1x1024_3 x
def spread (x : Arow) : Av := broadcastInDim S4x1x4096x1024 ![0, 1, 2, 3] bcast_S1x1x1x1024_S4x1x4096x1024_0_1_2_3 x

-- the projection back to 1024 channels
def v19 (y : Af) (w : Aci) (b : Ac) : Av :=
  addf (F := Ideal)
    (Host.dotGeneral (F := Ideal) dot_S4x1x4096x512_S1024x512_S4x1x4096x1024_3_1_012_0_n_n none y w)
    (spread (asRow b))

-- the sum over batch, unit axis and position
def colSum (x : Av) : Ac :=
  Host.reduceAdd (F := Ideal) x (constant (F := Ideal) S_ .f32 0x00000000#32) reducesTo_S4x1x4096x1024_S1024_d0_1_2 h_S_

def n16384 : Arow := broadcastInDim S1x1x1x1024 ![] bcast_S_S1x1x1x1024 (constant (F := Ideal) S_ .f32 0x46800000#32)

def mean (x : Av) : Arow := Host.divf (F := Ideal) (asRow (colSum x)) n16384

-- the variance's divisor: 16384 minus the integer zero converted
def corr : FVec Ideal S_ .f32 :=
  subf (F := Ideal) (constant (F := Ideal) S_ .f32 0x46800000#32) (sitofp (F := Ideal) .f32 (constantI S_ 32 0#32))

def var0 (x : Av) : Arow :=
  Host.divf (F := Ideal)
    (asRow (colSum (mulf (F := Ideal) (subf (F := Ideal) x (spread (mean x))) (subf (F := Ideal) x (spread (mean x))))))
    (broadcastInDim S1x1x1x1024 ![] bcast_S_S1x1x1x1024 corr)

-- the quotient where the divisor is positive, else a filler
def var (x : Av) : Arow :=
  select
    (broadcastInDim S1x1x1x1024 ![] bcast_S_S1x1x1x1024
      (cmpf (F := Ideal) .ogt corr (constant (F := Ideal) S_ .f32 0x00000000#32)))
    (var0 x)
    (broadcastInDim S1x1x1x1024 ![] bcast_S_S1x1x1x1024 (id (constant (F := Ideal) S_ .f32 0x7FC00000#32)))

def eps : Arow := broadcastInDim S1x1x1x1024 ![] bcast_S_S1x1x1x1024 (constant (F := Ideal) S_ .f32 0x3727C5AC#32)

-- normalise, scale, shift, add the residual
def norm (x : Av) (gamma beta : Ac) (v : Av) : Av :=
  addf (F := Ideal)
    (addf (F := Ideal)
      (mulf (F := Ideal)
        (mulf (F := Ideal) (subf (F := Ideal) x (spread (mean x)))
          (spread (Host.rsqrt (F := Ideal) (addf (F := Ideal) (var x) eps))))
        (spread (asRow gamma)))
      (spread (asRow beta)))
    v

def wy (a0 : Av) (a1 : Aic) (a2 : Ai) (a3 : Aic) (a4 : Ai) (a5 : Aic) (a6 : Ai) (a7 : Aci) (a8 : Ac) : Av :=
  v19 (v15 (aff a0 a3 a4) (aff a0 a5 a6) (aff a0 a1 a2)) a7 a8

-- the reference's result from its eleven arguments
def term (a0 : Av) (a1 : Aic) (a2 : Ai) (a3 : Aic) (a4 : Ai) (a5 : Aic) (a6 : Ai) (a7 : Aci) (a8 : Ac) (a9 : Ac)
    (a10 : Ac) : Av :=
  norm (wy a0 a1 a2 a3 a4 a5 a6 a7 a8) a9 a10 a0

end Cert.ReferenceIdeal.Hand

end
-- ==== Proof.RefRun.lean ====
import proofs.«161341_j29137058136126_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

abbrev Ct (F : FTy → Type) (S : Shape) : Type := (⟨S, .f32⟩ : BufTy).Contents (Elt F)

section
variable (F)

abbrev dvw : Ct F S4x1x4096x1024 → Ct F S512x1024 → Ct F S4x1x4096x512 :=
  fun l r => Host.dotGeneral dot_S4x1x4096x1024_S512x1024_S4x1x4096x512_3_1_012_0_n_n none l r
abbrev row512 : Ct F S512 → Ct F S1x1x1x512 := broadcastInDim S1x1x1x512 ![3] bcast_S512_S1x1x1x512_3
abbrev spr512 : Ct F S1x1x1x512 → Ct F S4x1x4096x512 :=
  broadcastInDim S4x1x4096x512 ![0, 1, 2, 3] bcast_S1x1x1x512_S4x1x4096x512_0_1_2_3
abbrev add512 : Ct F S4x1x4096x512 → Ct F S4x1x4096x512 → Ct F S4x1x4096x512 := addf
abbrev rowC : Ct F S1024 → Ct F S1x1x1x1024 := broadcastInDim S1x1x1x1024 ![3] bcast_S1024_S1x1x1x1024_3
abbrev sprC : Ct F S1x1x1x1024 → Ct F S4x1x4096x1024 :=
  broadcastInDim S4x1x4096x1024 ![0, 1, 2, 3] bcast_S1x1x1x1024_S4x1x4096x1024_0_1_2_3
abbrev litC : Ct F S_ → Ct F S1x1x1x1024 := broadcastInDim S1x1x1x1024 ![] bcast_S_S1x1x1x1024
abbrev sumC : Ct F S4x1x4096x1024 → Ct F S_ → Ct F S1024 :=
  fun x v => Host.reduceAdd x v reducesTo_S4x1x4096x1024_S1024_d0_1_2 h_S_
abbrev addC : Ct F S4x1x4096x1024 → Ct F S4x1x4096x1024 → Ct F S4x1x4096x1024 := addf
abbrev mulC : Ct F S4x1x4096x1024 → Ct F S4x1x4096x1024 → Ct F S4x1x4096x1024 := mulf

end

-- the program's sixty-six operations in order; an outlined function's are listed at its call
abbrev ops : List (HloOp τ sig (Elt F)) :=
  [
    binary main_arg0 main_arg1 main_v0 (dvw F),
    unary main_arg2 main_v1 (row512 F),
    unary main_v1 main_v2 (spr512 F),
    binary main_v0 main_v2 main_v3 (add512 F),
    binary main_arg0 main_arg3 main_v4 (dvw F),
    unary main_arg4 main_v5 (row512 F),
    unary main_v5 main_v6 (spr512 F),
    binary main_v4 main_v6 main_v7 (add512 F),
    binary main_arg0 main_arg5 main_v8 (dvw F),
    unary main_arg6 main_v9 (row512 F),
    unary main_v9 main_v10 (spr512 F),
    binary main_v8 main_v10 main_v11 (add512 F),
    binary main_v7 main_v11 main_v12 ((fun l r => Host.dotGeneral dot_S4x1x4096x512_S4x1x4096x512_S4x1x4096x4096_3_3_2_2_01_01 none l r) : Ct F S4x1x4096x512 → Ct F S4x1x4096x512 → Ct F S4x1x4096x4096),
    nullary main_cst (constant S_ .f32 0x45800000#32),
    unary main_cst main_v13 (broadcastInDim S4x1x4096x4096 ![] bcast_S_S4x1x4096x4096 : Ct F S_ → Ct F S4x1x4096x4096),
    binary main_v12 main_v13 main_v14 (Host.divf : Ct F S4x1x4096x4096 → Ct F S4x1x4096x4096 → Ct F S4x1x4096x4096),
    binary main_v14 main_v3 main_v15 ((fun l r => Host.dotGeneral dot_S4x1x4096x4096_S4x1x4096x512_S4x1x4096x512_3_2_2_3_01_01 none l r) : Ct F S4x1x4096x4096 → Ct F S4x1x4096x512 → Ct F S4x1x4096x512),
    binary main_v15 main_arg7 main_v16 ((fun l r => Host.dotGeneral dot_S4x1x4096x512_S1024x512_S4x1x4096x1024_3_1_012_0_n_n none l r) : Ct F S4x1x4096x512 → Ct F S1024x512 → Ct F S4x1x4096x1024),
    unary main_arg8 main_v17 (rowC F),
    unary main_v17 main_v18 (sprC F),
    binary main_v16 main_v18 main_v19 (addC F),
    nullary main_cst_0 (constant S_ .f32 0x00000000#32),
    binary main_v19 main_cst_0 main_v20 (sumC F),
    unary main_v20 main_v21 (rowC F),
    nullary main_cst_1 (constant S_ .f32 0x46800000#32),
    unary main_cst_1 main_v22 (litC F),
    binary main_v21 main_v22 main_v23 (Host.divf : Ct F S1x1x1x1024 → Ct F S1x1x1x1024 → Ct F S1x1x1x1024),
    nullary main_c (constantI S_ 32 0#32),
    TRef.nullary main_call0.cst (constant S_ .f32 0x00000000#32),
    TRef.binary (.of main_v19) main_call0.cst main_call0.v0 (sumC F),
    TRef.unary main_call0.v0 main_call0.v1 (rowC F),
    TRef.nullary main_call0.cst_0 (constant S_ .f32 0x46800000#32),
    TRef.unary main_call0.cst_0 main_call0.v2 (litC F),
    TRef.binary main_call0.v1 main_call0.v2 main_call0.v3 Host.divf,
    TRef.unary main_call0.v3 main_call0.v4 (sprC F),
    TRef.binary (.of main_v19) main_call0.v4 main_call0.v5 subf,
    TRef.binary main_call0.v5 main_call0.v5 main_call0.v6 mulf,
    TRef.unary (.of main_c) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (sumC F),
    TRef.unary main_call0.v9 main_call0.v10 (rowC F),
    TRef.unary main_call0.v8 main_call0.v11 (litC F),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (litC F),
    TRef.ternary main_call0.v13 main_call0.v12 main_call0.call0.v1 main_call0.call0.v2 (fun p a b => select (broadcastInDim S1x1x1x1024 ![] bcast_S_S1x1x1x1024 p) a b),
    unary main_v23 main_v25 (sprC F),
    binary main_v19 main_v25 main_v26 (subf : Ct F S4x1x4096x1024 → Ct F S4x1x4096x1024 → Ct F S4x1x4096x1024),
    nullary main_cst_2 (constant S_ .f32 0x3727C5AC#32),
    unary main_cst_2 main_v27 (litC F),
    binary main_v24 main_v27 main_v28 (addf : Ct F S1x1x1x1024 → Ct F S1x1x1x1024 → Ct F S1x1x1x1024),
    unary main_v28 main_v29 (Host.rsqrt : Ct F S1x1x1x1024 → Ct F S1x1x1x1024),
    unary main_v29 main_v30 (sprC F),
    binary main_v26 main_v30 main_v31 (mulC F),
    unary main_arg9 main_v32 (rowC F),
    unary main_v32 main_v33 (sprC F),
    binary main_v31 main_v33 main_v34 (mulC F),
    unary main_arg10 main_v35 (rowC F),
    unary main_v35 main_v36 (sprC F),
    binary main_v34 main_v36 main_v37 (addC F),
    binary main_v37 main_arg0 main_v38 (addC F) ]

theorem main_eq (c : Dev nD) : main (F := F) c = seq ops := rfl

theorem ops_sub : (ops : List (HloOp τ sig (Elt F))).Forall fun op => op.bufs ⊆ tcRefs τ sig := by
  repeat' apply And.intro
  all_goals simp only [List.Forall, nullary_bufs_sub, unary_bufs_sub, binary_bufs_sub, ternary_bufs_sub]

-- following each operand back to the arguments composes the operations as the term composes them
theorem out_eq (V : Valuation τ sig (Elt Ideal)) :
    after (ops (F := Ideal)) V main_v38
      = term (V main_arg0) (V main_arg1) (V main_arg2) (V main_arg3) (V main_arg4) (V main_arg5) (V main_arg6) (V main_arg7) (V main_arg8) (V main_arg9) (V main_arg10) := by
  after_results_simp
  rfl

-- no operation of the list writes r
def Kept (F : FTy → Type) [FloatOps F] (r : Ref sig .tc) : Prop :=
  ∀ V : Valuation τ sig (Elt F), after (ops (F := F)) V r = V r

theorem arg0_eq : Kept F main_arg0 := fun _ => by after_results_simp
theorem arg1_eq : Kept F main_arg1 := fun _ => by after_results_simp
theorem arg2_eq : Kept F main_arg2 := fun _ => by after_results_simp
theorem arg3_eq : Kept F main_arg3 := fun _ => by after_results_simp
theorem arg4_eq : Kept F main_arg4 := fun _ => by after_results_simp
theorem arg5_eq : Kept F main_arg5 := fun _ => by after_results_simp
theorem arg6_eq : Kept F main_arg6 := fun _ => by after_results_simp
theorem arg7_eq : Kept F main_arg7 := fun _ => by after_results_simp
theorem arg8_eq : Kept F main_arg8 := fun _ => by after_results_simp
theorem arg9_eq : Kept F main_arg9 := fun _ => by after_results_simp
theorem arg10_eq : Kept F main_arg10 := fun _ => by after_results_simp

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38)
          = term (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _).trans (out_eq _),
      (h c _).trans (arg0_eq _),
      (h c _).trans (arg1_eq _),
      (h c _).trans (arg2_eq _),
      (h c _).trans (arg3_eq _),
      (h c _).trans (arg4_eq _),
      (h c _).trans (arg5_eq _),
      (h c _).trans (arg6_eq _),
      (h c _).trans (arg7_eq _),
      (h c _).trans (arg8_eq _),
      (h c _).trans (arg9_eq _),
      (h c _).trans (arg10_eq _)⟩)
    (run_seq (by decide) (by decide) defs main (fun _ => ops) main_eq (fun _ => ops_sub) m ρ)

end Cert.ReferenceIdeal.Hand

end
-- ==== Proof.RefReadDims.lean ====
import proofs.«161341_j29137058136126_1_alg».proof.Proof.RefTerm
import Idealize.ShloMosaic.PureOps.Ideal.Laws
import Idealize.ShloMosaic.Lib.ValueIdx

noncomputable section

open scoped BigOperators

namespace Cert.ReferenceIdeal.Hand

open Cert.ReferenceIdeal Cert.ReferenceIdeal.Gen Idealize.ShloMosaic Idealize.ShloMosaic.ValueIdx

/-- A contraction over one axis is the sum over that axis's positions, once both operand indices are named. -/
theorem dot1_apply {sl sr so : Shape} (D : DotDims sl sr so) (n : ℕ) (hr : D.contr.rank = 1)
    (hs : D.contr.size ⟨0, by omega⟩ = n) (x : FVec Ideal sl .f32) (y : FVec Ideal sr .f32) (j : so.Idx)
    (p : Fin n → sl.Idx) (q : Fin n → sr.Idx)
    (hp : ∀ k, D.lhsIdx j ((contrEquiv1 D n hr hs).symm k) = p k)
    (hq : ∀ k, D.rhsIdx j ((contrEquiv1 D n hr hs).symm k) = q k) :
    Host.dotGeneral (F := Ideal) D none x y j = ∑ k, x (p k) * y (q k) := by
  simp only [Host.dotGeneral]
  rw [Ideal.dotGeneral_apply, ← Equiv.sum_comp (contrEquiv1 D n hr hs).symm]
  exact Finset.sum_congr rfl fun k _ => by rw [hp, hq]

theorem dotVW_apply (v : Av) (w : Aic) (b : Fin 4) (u : Fin 1) (n : Fin 4096) (i : Fin 512) :
    Host.dotGeneral (F := Ideal) dot_S4x1x4096x1024_S512x1024_S4x1x4096x512_3_1_012_0_n_n none v w (ix4 b u n i)
      = ∑ k : Fin 1024, v (ix4 b u n k) * w (ix2 i k) :=
  dot1_apply _ 1024 rfl rfl v w _ _ _ (fun _ => eq_ix4 _) (fun _ => eq_ix2 _)

theorem dotTP_apply (th ph : Af) (b : Fin 4) (u : Fin 1) (n m : Fin 4096) :
    Host.dotGeneral (F := Ideal) dot_S4x1x4096x512_S4x1x4096x512_S4x1x4096x4096_3_3_2_2_01_01 none th ph (ix4 b u n m)
      = ∑ k : Fin 512, th (ix4 b u n k) * ph (ix4 b u m k) :=
  dot1_apply _ 512 rfl rfl th ph _ _ _ (fun _ => eq_ix4 _) (fun _ => eq_ix4 _)

theorem dotAG_apply (a : FVec Ideal S4x1x4096x4096 .f32) (g : Af) (b : Fin 4) (u : Fin 1) (n : Fin 4096) (i : Fin 512) :
    Host.dotGeneral (F := Ideal) dot_S4x1x4096x4096_S4x1x4096x512_S4x1x4096x512_3_2_2_3_01_01 none a g (ix4 b u n i)
      = ∑ m : Fin 4096, a (ix4 b u n m) * g (ix4 b u m i) :=
  dot1_apply _ 4096 rfl rfl a g _ _ _ (fun _ => eq_ix4 _) (fun _ => eq_ix4 _)

theorem dotYW_apply (y : Af) (w : Aci) (b : Fin 4) (u : Fin 1) (n : Fin 4096) (c : Fin 1024) :
    Host.dotGeneral (F := Ideal) dot_S4x1x4096x512_S1024x512_S4x1x4096x1024_3_1_012_0_n_n none y w (ix4 b u n c)
      = ∑ k : Fin 512, y (ix4 b u n k) * w (ix2 c k) :=
  dot1_apply _ 512 rfl rfl y w _ _ _ (fun _ => eq_ix4 _) (fun _ => eq_ix2 _)

end Cert.ReferenceIdeal.Hand

end
-- ==== Proof.RefReadMoments.lean ====
import proofs.«161341_j29137058136126_1_alg».proof.Proof.RefTerm
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

theorem asRow_apply (x : Ac) (u0 u1 u2 : Fin 1) (c : Fin 1024) : asRow x (ix4 u0 u1 u2 c) = x (ix1 c) :=
  broadcastInDim_apply _ _ x _ (ix1 c) fun a => match a with | ⟨0, _⟩ => rfl

theorem spread_apply (r : Arow) (b : Fin 4) (u : Fin 1) (n : Fin 4096) (c : Fin 1024) :
    spread r (ix4 b u n c) = r (ix4 0 0 0 c) :=
  broadcastInDim_apply _ _ r _ (ix4 0 0 0 c) fun a => match a with
    | ⟨0, _⟩ => rfl | ⟨1, _⟩ => rfl | ⟨2, _⟩ => rfl | ⟨3, _⟩ => rfl

theorem bias512_apply (x : Ai) (b : Fin 4) (u : Fin 1) (n : Fin 4096) (i : Fin 512) :
    broadcastInDim S4x1x4096x512 ![0, 1, 2, 3] bcast_S1x1x1x512_S4x1x4096x512_0_1_2_3
      (broadcastInDim S1x1x1x512 ![3] bcast_S512_S1x1x1x512_3 x) (ix4 b u n i) = x (ix1 i) :=
  (broadcastInDim_apply _ _ _ _ (ix4 0 0 0 i) fun a => match a with
    | ⟨0, _⟩ => rfl | ⟨1, _⟩ => rfl | ⟨2, _⟩ => rfl | ⟨3, _⟩ => rfl).trans
    (broadcastInDim_apply _ _ x _ (ix1 i) fun a => match a with | ⟨0, _⟩ => rfl)

theorem drop_eq (i : S4x1x4096x1024.Idx) : reducesTo_S4x1x4096x1024_S1024_d0_1_2.drop i = ix1 (i 3) :=
  funext fun a => match a with | ⟨0, _⟩ => rfl

/-- An index reduces to channel c exactly when it is (b, 0, n, c); the unit axis has one position. -/
theorem colSum_apply (x : Av) (c : Fin 1024) :
    colSum x (ix1 c) = ∑ b : Fin 4, ∑ n : Fin 4096, x (ix4 b 0 n c) := by
  unfold colSum
  rw [hostReduceAdd_apply, constant_apply]
  unfold Ideal.hostReduceAdd
  rw [Ideal.ofBits_zero_f32, zero_add, ← Fintype.sum_prod_type']
  have key : ∀ i ∈ Finset.univ.filter (fun i => reducesTo_S4x1x4096x1024_S1024_d0_1_2.drop i = ix1 c),
      i = ix4 (i 0) 0 (i 2) c := fun i hi => funext fun a => match a with
    | ⟨0, _⟩ => rfl
    | ⟨1, _⟩ => Subsingleton.elim (α := Fin 1) _ _
    | ⟨2, _⟩ => rfl
    | ⟨3, _⟩ => congrFun ((drop_eq i).symm.trans (Finset.mem_filter.mp hi).2) 0
  exact Finset.sum_nbij' (fun i => (i 0, i 2)) (fun p => ix4 p.1 0 p.2 c) (fun _ _ => Finset.mem_univ _)
    (fun p _ => Finset.mem_filter.mpr ⟨Finset.mem_univ _, drop_eq _⟩) (fun i hi => (key i hi).symm)
    (fun _ _ => rfl) (fun i hi => congrArg x (key i hi))

theorem c16384_pos : (0 : EReal) < Ideal.ofBits .f32 0x46800000#32 := by
  have h : Ideal.ofBits .f32 0x46800000#32 = ((16384 : ℝ) : EReal) := by
    simp [Ideal.ofBits, Ideal.ieee, -EReal.coe_mul]; norm_num
  rw [h]
  exact EReal.coe_pos.mpr (by norm_num)

/-- The integer zero converts to zero, so the correction term is 16384. -/
theorem corr_apply (i : S_.Idx) : corr i = Ideal.ofBits .f32 0x46800000#32 := by
  unfold corr
  rw [subf_apply, constant_apply, sitofp_apply]
  show _ - ((((0#32 : BitVec 32).toInt : ℝ)) : EReal) = _
  simp

theorem mean_apply (x : Av) (u0 u1 u2 : Fin 1) (c : Fin 1024) :
    mean x (ix4 u0 u1 u2 c) = Ideal.div (colSum x (ix1 c)) (Ideal.ofBits .f32 0x46800000#32) := by
  unfold mean
  rw [hostDivf_apply, asRow_apply]
  rfl

/-- The correction term is positive, so the guard keeps the quotient. -/
theorem var_apply (x : Av) (u0 u1 u2 : Fin 1) (c : Fin 1024) :
    var x (ix4 u0 u1 u2 c)
      = Ideal.div (colSum (mulf (F := Ideal) (subf (F := Ideal) x (spread (mean x))) (subf (F := Ideal) x (spread (mean x)))) (ix1 c))
          (Ideal.ofBits .f32 0x46800000#32) := by
  unfold var
  rw [select_apply, broadcastInDim_scalar_apply, cmpf_apply, corr_apply, constant_apply, Ideal.ofBits_zero_f32,
    Ideal.cmpf_def]
  unfold Ideal.cmp
  simp only [c16384_pos, decide_true, BitVec.ofBool_true]
  refine (select_one _ _).trans ?_
  unfold var0
  rw [hostDivf_apply, asRow_apply, broadcastInDim_scalar_apply, corr_apply]

theorem norm_apply (x : Av) (gamma beta : Ac) (v : Av) (b : Fin 4) (u : Fin 1) (n : Fin 4096) (c : Fin 1024) :
    norm x gamma beta v (ix4 b u n c)
      = (x (ix4 b u n c) - mean x (ix4 0 0 0 c)) * Ideal.rsqrt (var x (ix4 0 0 0 c) + Ideal.ofBits .f32 0x3727C5AC#32)
          * gamma (ix1 c) + beta (ix1 c) + v (ix4 b u n c) := by
  unfold norm
  rw [addf_apply, addf_apply, mulf_apply, mulf_apply, subf_apply, spread_apply, spread_apply, spread_apply, spread_apply,
    asRow_apply, asRow_apply]
  rfl

end Cert.ReferenceIdeal.Hand

end
-- ==== Proof.RefReadStages.lean ====
import proofs.«161341_j29137058136126_1_alg».proof.Proof.RefReadDims
import proofs.«161341_j29137058136126_1_alg».proof.Proof.RefReadMoments

noncomputable section

open scoped BigOperators

namespace Cert.ReferenceIdeal.Hand

open Cert.ReferenceIdeal Cert.ReferenceIdeal.Gen Idealize.ShloMosaic Idealize.ShloMosaic.ValueIdx

theorem aff_apply (v : Av) (w : Aic) (bias : Ai) (b : Fin 4) (u : Fin 1) (n : Fin 4096) (i : Fin 512) :
    aff v w bias (ix4 b u n i) = (∑ k : Fin 1024, v (ix4 b u n k) * w (ix2 i k)) + bias (ix1 i) := by
  unfold aff
  rw [addf_apply, dotVW_apply, bias512_apply]

theorem v14_apply (th ph : Af) (b : Fin 4) (u : Fin 1) (n m : Fin 4096) :
    v14 th ph (ix4 b u n m)
      = Ideal.div (∑ k : Fin 512, th (ix4 b u n k) * ph (ix4 b u m k)) (Ideal.ofBits .f32 0x45800000#32) := by
  unfold v14
  rw [hostDivf_apply, dotTP_apply]
  rfl

theorem v19_apply (y : Af) (w : Aci) (bias : Ac) (b : Fin 4) (u : Fin 1) (n : Fin 4096) (c : Fin 1024) :
    v19 y w bias (ix4 b u n c) = (∑ k : Fin 512, y (ix4 b u n k) * w (ix2 c k)) + bias (ix1 c) := by
  unfold v19
  rw [addf_apply, dotYW_apply, spread_apply, asRow_apply]

end Cert.ReferenceIdeal.Hand

end
-- ==== Proof.RefRead.lean ====
import proofs.«161341_j29137058136126_1_alg».proof.Proof.RefReadStages
import proofs.«161341_j29137058136126_1_alg».proof.Proof.Spec

noncomputable section

open scoped BigOperators

namespace Cert.ReferenceIdeal.Hand

open Cert.ReferenceIdeal Cert.ReferenceIdeal.Gen Idealize.ShloMosaic Idealize.ShloMosaic.ValueIdx

section
variable {a0 : Av} {a1 : Aic} {a2 : Ai} {a3 : Aic} {a4 : Ai} {a5 : Aic} {a6 : Ai} {a7 : Aci} {a8 a9 a10 : Ac}

theorem attn_eq (b : Fin 4) (n m : Fin 4096) :
    v14 (aff a0 a3 a4) (aff a0 a5 a6) (ix4 b 0 n m)
      = Spec.attn (Spec.inputsOf a0 a1 a2 a3 a4 a5 a6 a7 a8 a9 a10) b n m := by
  rw [v14_apply]
  exact congrArg (Ideal.div · _) (Finset.sum_congr rfl fun k _ => congrArg₂ (· * ·) (aff_apply ..) (aff_apply ..))

theorem y_eq (b : Fin 4) (n : Fin 4096) (i : Fin 512) :
    v15 (aff a0 a3 a4) (aff a0 a5 a6) (aff a0 a1 a2) (ix4 b 0 n i)
      = Spec.yR (Spec.inputsOf a0 a1 a2 a3 a4 a5 a6 a7 a8 a9 a10) b n i :=
  (dotAG_apply ..).trans (Finset.sum_congr rfl fun m _ => congrArg₂ (· * ·) (attn_eq b n m) (aff_apply ..))

theorem wy_eq (b : Fin 4) (n : Fin 4096) (c : Fin 1024) :
    wy a0 a1 a2 a3 a4 a5 a6 a7 a8 (ix4 b 0 n c)
      = Spec.wyR (Spec.inputsOf a0 a1 a2 a3 a4 a5 a6 a7 a8 a9 a10) b n c :=
  (v19_apply ..).trans (congrArg (· + _) (Finset.sum_congr rfl fun k _ => congrArg (· * _) (y_eq b n k)))

theorem mean_eq (c : Fin 1024) :
    mean (wy a0 a1 a2 a3 a4 a5 a6 a7 a8) (ix4 0 0 0 c)
      = Spec.meanR (Spec.inputsOf a0 a1 a2 a3 a4 a5 a6 a7 a8 a9 a10) c :=
  (mean_apply ..).trans (congrArg (Ideal.div · _) ((colSum_apply ..).trans
    (Finset.sum_congr rfl fun b _ => Finset.sum_congr rfl fun n _ => wy_eq b n c)))

theorem var_eq (c : Fin 1024) :
    var (wy a0 a1 a2 a3 a4 a5 a6 a7 a8) (ix4 0 0 0 c)
      = Spec.varR (Spec.inputsOf a0 a1 a2 a3 a4 a5 a6 a7 a8 a9 a10) c := by
  rw [var_apply, colSum_apply]
  refine congrArg (Ideal.div · _) (Finset.sum_congr rfl fun b _ => Finset.sum_congr rfl fun n _ => ?_)
  rw [mulf_apply, subf_apply, spread_apply, mean_eq (a9 := a9) (a10 := a10), wy_eq (a9 := a9) (a10 := a10)]

end

theorem term_eq (a0 : Av) (a1 : Aic) (a2 : Ai) (a3 : Aic) (a4 : Ai) (a5 : Aic) (a6 : Ai) (a7 : Aci) (a8 : Ac) (a9 : Ac)
    (a10 : Ac) :
    term a0 a1 a2 a3 a4 a5 a6 a7 a8 a9 a10
      = Cert.Spec.asArray (Cert.Spec.outR (Cert.Spec.inputsOf a0 a1 a2 a3 a4 a5 a6 a7 a8 a9 a10)) := by
  funext j
  obtain ⟨b, u, n, c, rfl⟩ : ∃ (b : Fin 4) (u : Fin 1) (n : Fin 4096) (c : Fin 1024), j = ix4 b u n c :=
    ⟨j 0, j 1, j 2, j 3, eq_ix4 j⟩
  obtain rfl : u = 0 := Subsingleton.elim _ _
  unfold term
  rw [norm_apply, wy_eq (a9 := a9) (a10 := a10), mean_eq (a9 := a9) (a10 := a10), var_eq (a9 := a9) (a10 := a10)]
  rfl

end Cert.ReferenceIdeal.Hand

end
-- ==== Proof.AlgebraCoe.lean ====
import proofs.«161341_j29137058136126_1_alg».proof.Proof.Spec
import Mathlib.Data.EReal.Inv
import Mathlib.Algebra.BigOperators.Ring.Finset
import Mathlib.Tactic.NormNum
import Mathlib.Tactic.Ring

noncomputable section

open scoped BigOperators

namespace Cert.Spec

open Idealize.ShloMosaic

-- The embedding of the reals is additive, so it commutes with finite sums.
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem c4096_eq : c4096 = ((4096 : ℝ) : EReal) := by
  simp [c4096, Ideal.ofBits, Ideal.ieee, -EReal.coe_mul]; norm_num

theorem c16384_eq : c16384 = ((16384 : ℝ) : EReal) := by
  simp [c16384, Ideal.ofBits, Ideal.ieee, -EReal.coe_mul]; norm_num

theorem cInv4096_eq : cInv4096 = ((1 / 4096 : ℝ) : EReal) := by
  simp [cInv4096, Ideal.ofBits, Ideal.ieee, -EReal.coe_mul]; norm_num

-- Dividing by a nonzero real literal is multiplying by its reciprocal.
theorem div_c4096 (a : EReal) : Ideal.div a c4096 = a * ((1 / 4096 : ℝ) : EReal) := by
  rw [c4096_eq, Ideal.div_coe (by norm_num)]

theorem div_c16384 (a : EReal) : Ideal.div a c16384 = a * ((1 / 16384 : ℝ) : EReal) := by
  rw [c16384_eq, Ideal.div_coe (by norm_num)]

-- Every position is row r of tile t for exactly one pair (t, r), so the double sum runs over all positions once.
theorem sum_row {M : Type*} [AddCommMonoid M] (f : N → M) :
    (∑ t : T, ∑ r : R, f (row t r)) = ∑ n : N, f n := by
  rw [← Fintype.sum_prod_type' (fun t r => f (row t r))]
  exact Fintype.sum_equiv finProdFinEquiv _ _ fun p =>
    congrArg f (Fin.ext (show p.1.val * 512 + p.2.val = p.2.val + 512 * p.1.val by omega))

end Cert.Spec

end
-- ==== Proof.AlgebraGram.lean ====
import proofs.«161341_j29137058136126_1_alg».proof.Proof.AlgebraCoe

noncomputable section

open scoped BigOperators

namespace Cert.Spec

open Idealize.ShloMosaic

-- An affine map of real entries is the embedding of the real affine map.
theorem lin_real {x : Inputs} (hv : ∀ b n c, ∃ r : ℝ, x.v b n c = (r : EReal)) {w : I → C → EReal} {bias : I → EReal}
    (hw : ∀ i c, ∃ r : ℝ, w i c = (r : EReal)) (hb : ∀ i, ∃ r : ℝ, bias i = (r : EReal)) :
    ∃ f : B → N → I → ℝ, ∀ b n i, lin x w bias b n i = (f b n i : EReal) := by
  choose v hv using hv
  choose w' hw using hw
  choose b' hb using hb
  exact ⟨fun b n i => (∑ k, v b n k * w' i k) + b' i, fun b n i => by
    simp only [lin, hv, hw, hb, EReal.coe_add, EReal.coe_mul, coe_sum]⟩

-- With real theta, phi, g both arrangements of the weighted sum embed real sums, equal by exchanging the sums over features and positions.
theorem yK_eq_yR_real {x : Inputs} {T P G : B → N → I → ℝ} (hT : ∀ b n i, th x b n i = (T b n i : EReal))
    (hP : ∀ b n i, ph x b n i = (P b n i : EReal)) (hG : ∀ b n i, gv x b n i = (G b n i : EReal)) (b : B) (n : N) (i : I) :
    ∃ r : ℝ, yK x b n i = (r : EReal) ∧ yR x b n i = (r : EReal) := by
  refine ⟨∑ m, (∑ j, T b n j * P b m j) * (1 / 4096) * G b m i, ?_, ?_⟩
  · have hg : ∀ j, gram x b j i = ((∑ m, P b m j * G b m i) * (1 / 4096) : ℝ) := fun j => by
      unfold gram
      rw [sum_row (fun m => ph x b m j * gv x b m i)]
      simp only [hP, hG, cInv4096_eq, ← EReal.coe_mul, ← coe_sum]
    simp only [yK, hT, hg, ← EReal.coe_mul, ← coe_sum]
    refine congrArg _ ?_
    simp only [Finset.sum_mul, Finset.mul_sum]
    rw [Finset.sum_comm]
    exact Finset.sum_congr rfl fun m _ => Finset.sum_congr rfl fun j _ => by ring
  · simp only [yR, attn, div_c4096, hT, hP, hG, ← EReal.coe_mul, ← coe_sum]

theorem wyK_eq_wyR_real (x : Inputs) (h : x.Finite) :
    ∃ w : B → N → C → ℝ, (∀ b n c, wyK x b n c = (w b n c : EReal)) ∧ (∀ b n c, wyR x b n c = (w b n c : EReal)) := by
  obtain ⟨G, hG⟩ := lin_real h.v h.gw h.gb
  obtain ⟨T, hT⟩ := lin_real h.v h.tw h.tb
  obtain ⟨P, hP⟩ := lin_real h.v h.pw h.pb
  choose y hyK hyR using yK_eq_yR_real (x := x) hT hP hG
  choose W hW using h.ww
  choose Wb hWb using h.wb
  exact ⟨fun b n c => (∑ i, y b n i * W c i) + Wb c,
    fun b n c => by simp only [wyK, hyK, hW, hWb, EReal.coe_add, EReal.coe_mul, coe_sum],
    fun b n c => by simp only [wyR, hyR, hW, hWb, EReal.coe_add, EReal.coe_mul, coe_sum]⟩

end Cert.Spec

end
-- ==== Proof.AlgebraMoments.lean ====
import proofs.«161341_j29137058136126_1_alg».proof.Proof.AlgebraCoe

noncomputable section

open scoped BigOperators

namespace Cert.Spec

open Idealize.ShloMosaic

-- Expanding the square over the 4 · 4096 entries: Σ (y - μ)² = Σ y² - 2 μ Σ y + 16384 μ², and Σ y = 16384 μ.
theorem real_var (y : B → N → ℝ) :
    (∑ b, ∑ n, y b n * y b n) * (1 / 16384) - (∑ b, ∑ n, y b n) * (1 / 16384) * ((∑ b, ∑ n, y b n) * (1 / 16384))
      = (∑ b, ∑ n, (y b n - (∑ b, ∑ n, y b n) * (1 / 16384)) * (y b n - (∑ b, ∑ n, y b n) * (1 / 16384))) * (1 / 16384) := by
  have e : ∀ μ : ℝ, (∑ b, ∑ n, (y b n - μ) * (y b n - μ))
      = (∑ b, ∑ n, y b n * y b n) - 2 * μ * (∑ b, ∑ n, y b n) + 16384 * (μ * μ) := by
    intro μ
    have : ∀ b n, (y b n - μ) * (y b n - μ) = y b n * y b n - 2 * μ * y b n + μ * μ := fun b n => by ring
    simp only [this, Finset.sum_add_distrib, Finset.sum_sub_distrib, ← Finset.mul_sum, Finset.sum_const,
      Finset.card_univ, Fintype.card_fin, nsmul_eq_mul, Nat.cast_ofNat]
    ring
  rw [e]
  ring

theorem sum_row₂ {M : Type*} [AddCommMonoid M] (f : B → N → M) :
    (∑ b : B, ∑ t : T, ∑ r : R, f b (row t r)) = ∑ b : B, ∑ n : N, f b n :=
  Finset.sum_congr rfl fun b _ => sum_row (f b)

variable {x : Inputs} {w : B → N → C → ℝ} (hK : ∀ b n c, wyK x b n c = (w b n c : EReal))
  (hR : ∀ b n c, wyR x b n c = (w b n c : EReal)) (c : C)
include hK hR

theorem meanK_eq_meanR : meanK x c = meanR x c := by
  simp only [meanK, meanR, sumK, sumR, hK, hR]
  rw [sum_row₂ (fun b n => (w b n c : EReal))]

-- Both variances embed real numbers, equal by `real_var`.
theorem varK_eq_varR : varK x c = varR x c := by
  simp only [varK, varR, meanK, meanR, sqK, sumK, sumR, hK, hR]
  rw [sum_row₂ (fun b n => (w b n c : EReal)), sum_row₂ (fun b n => (w b n c : EReal) * (w b n c : EReal))]
  simp only [div_c16384, ← EReal.coe_mul, ← EReal.coe_sub, ← coe_sum]
  exact congrArg _ (real_var fun b n => w b n c)

end Cert.Spec

end
-- ==== Proof.Algebra.lean ====
import proofs.«161341_j29137058136126_1_alg».proof.Proof.AlgebraGram
import proofs.«161341_j29137058136126_1_alg».proof.Proof.AlgebraMoments

noncomputable section

namespace Cert.Spec

-- The projected result, its mean and its variance agree, and the result is one expression of these three.
theorem outK_eq_outR (x : Inputs) (h : x.Finite) : outK x = outR x := by
  obtain ⟨w, hK, hR⟩ := wyK_eq_wyR_real x h
  funext b n c
  simp only [outK, outR, (hK b n c).trans (hR b n c).symm, meanK_eq_meanR hK hR c, varK_eq_varR hK hR c]

end Cert.Spec

end
-- ==== Proof.Finite.lean ====
import proofs.«161341_j29137058136126_1_alg».proof.Proof.Spec
import proofs.«161341_j29137058136126_1_alg».proof.Pre_finite_inputs
import Idealize.ShloMosaic.Lib.ReduceAll
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

theorem inf_word : Ideal.ofBits .f32 0x7F800000#32 = (⊤ : EReal) := by
  simp [Ideal.ofBits, Ideal.ieee]

theorem true_of_ofBool_eq_one : ∀ b : Bool, BitVec.ofBool b = 1#1 → b = true := by decide

-- The absolute value max x (-x) is +∞ at both infinities, so below +∞ only a real number is left.
theorem real_of_abs_lt_top (x : EReal) (h : max x (-x) < ⊤) : ∃ r : ℝ, x = (r : EReal) := by
  induction x using EReal.rec with
  | bot => simp at h
  | coe r => exact ⟨r, rfl⟩
  | top => simp at h

-- One argument's test "all |a| < +∞", true after the reduction by "and" over every axis, speaks for each entry of a.
theorem entries_real {s : Shape} {axes : List (Fin s.rank)} (a : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) .olt (Host.absf (F := Ideal) (φ := .f32) a)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, a i = (r : EReal) := by
  have hi := Host.reduce_andi_all _ _ hr hu ix0 e i
  refine real_of_abs_lt_top (a i) ?_
  simp only [cmpf, Host.absf, broadcastInDim, constant, Ideal.hostAbsf_def, Ideal.cmpf_def, Ideal.absf_def,
    Ideal.ofBits_def, inf_word, Ideal.cmp] at hi
  have hlt := true_of_ofBool_eq_one _ hi
  simpa using hlt

end Cert.Finite

end
-- ==== Proof.PreUse.lean ====
import proofs.«161341_j29137058136126_1_alg».proof.Defs
import proofs.«161341_j29137058136126_1_alg».proof.Proof.Finite

noncomputable section

namespace Cert.Finite

open Idealize.ShloMosaic Idealize.ShloMosaic.ValueIdx Idealize.SL.Sem

-- The eleven tests are joined by "and", so each came out true, and each speaks for every entry of its array.
theorem of_pre_kernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (Cert.Spec.inputsOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))).Finite := by
  have h0 := congrFun (h c) ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨fun b n c => entries_real _ _ _ _ e0 (ix4 b 0 n c), fun i c => entries_real _ _ _ _ e1 (ix2 i c),
    fun i => entries_real _ _ _ _ e2 (ix1 i), fun i c => entries_real _ _ _ _ e3 (ix2 i c),
    fun i => entries_real _ _ _ _ e4 (ix1 i), fun i c => entries_real _ _ _ _ e5 (ix2 i c),
    fun i => entries_real _ _ _ _ e6 (ix1 i), fun c i => entries_real _ _ _ _ e7 (ix2 c i),
    fun c => entries_real _ _ _ _ e8 (ix1 c), fun c => entries_real _ _ _ _ e9 (ix1 c),
    fun c => entries_real _ _ _ _ e10 (ix1 c)⟩

end Cert.Finite

end
-- ==== Proof.lean ====
import proofs.«161341_j29137058136126_1_alg».proof.Defs
import proofs.«161341_j29137058136126_1_alg».proof.Proof.Gen.Kernel
import proofs.«161341_j29137058136126_1_alg».proof.Proof.Gen.KernelIdeal
import proofs.«161341_j29137058136126_1_alg».proof.Proof.Gen.ReferenceIdeal
import proofs.«161341_j29137058136126_1_alg».proof.Proof.Gen.Pre_finite_inputs
import proofs.«161341_j29137058136126_1_alg».proof.Proof.KB.Launch
import proofs.«161341_j29137058136126_1_alg».proof.Proof.KI.Result
import proofs.«161341_j29137058136126_1_alg».proof.Proof.RefRun
import proofs.«161341_j29137058136126_1_alg».proof.Proof.RefRead
import proofs.«161341_j29137058136126_1_alg».proof.Proof.Algebra
import proofs.«161341_j29137058136126_1_alg».proof.Proof.PreUse

noncomputable section

namespace Cert.Proof

open Idealize.ShloMosaic Idealize.ShloMosaic.TcCoe Idealize.SL.Sem

theorem frame_kernel : Cert.frame_Kernel := fun m ρ _ => Cert.Kernel.Whole.frame (F := Bits) m ρ

theorem frame_kernelIdeal : Cert.frame_KernelIdeal := fun m ρ _ => Cert.KernelIdeal.Whole.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- Both runs end at the reference's formula of the shared arguments: the kernel at its own formula, which equals it on finite inputs. -/
theorem algebraic : Cert.algebraic_KernelIdeal_ReferenceIdeal := by
  intro m ρ m' ρ' hpre hagree
  refine ⟨fun c => Spec.asArray (Spec.outR (KernelIdeal.Whole.ins m c)),
    (θ_run KernelIdeal.defs _ _).mono (fun r h c => ⟨?_, KernelIdeal.Whole.kept m ρ r.2 h c⟩) (KernelIdeal.Whole.run_all (F := Ideal) m ρ), ?_⟩
  · exact ((h c _ (KernelIdeal.Whole.mem_uc KernelIdeal.main_v18 (by decide))).trans (KernelIdeal.Whole.result_eq m ρ c)).trans
      (congrArg Spec.asArray (Spec.outK_eq_outR _ (Finite.of_pre_kernelIdeal m hpre c)))
  · refine (θ_run ReferenceIdeal.defs _ _).mono (fun r h c => ⟨(h c).1.trans ?_, (h c).2⟩) (ReferenceIdeal.Hand.run m' ρ')
    rw [ReferenceIdeal.Hand.term_eq]
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
